-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S256x32 : Shape := ⟨2, ![256, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S32x128 .f32) (main_arg11 : FVec F S128 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg10
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S32x128 .f32) (main_arg11 : FVec F S128 .f32) (main_arg12 : FVec F S256x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : IVec S100000 32) (main_arg3 : FVec F S256x32 .f32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S32x128 .f32) (main_arg11 : FVec F S128 .f32) (main_arg12 : FVec F S256x128 .f32) (main_arg13 : FVec F S128 .f32) (main_arg14 : FVec F S128x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S256x32 .f32 := Host.absf main_arg3
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S256x32 : Shape := ⟨2, ![256, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S10000x128 : Shape := ⟨2, ![10000, 128]⟩
abbrev S10000x1 : Shape := ⟨2, ![10000, 1]⟩
abbrev S256x1 : Shape := ⟨2, ![256, 1]⟩
abbrev S1x256 : Shape := ⟨2, ![1, 256]⟩
abbrev S10000x256 : Shape := ⟨2, ![10000, 256]⟩
abbrev S256 : Shape := ⟨1, ![256]⟩
abbrev S1x1 : Shape := ⟨2, ![1, 1]⟩
abbrev S256x256 : Shape := ⟨2, ![256, 256]⟩

abbrev nBuf : Space → Nat
  | .hbm => 79
  | .vmem => 46
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S256x32, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S32x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000, .i32⟩
  | .hbm, ⟨21, _⟩ => ⟨S1700000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .bf16⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .bf16⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .bf16⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x1, .i32⟩
  | .hbm, ⟨73, _⟩ => ⟨S256x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x1, .f32⟩
  | .hbm, ⟨78, _⟩ => ⟨S256x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .i32⟩
  | .local _ .vmem, ⟨31, _⟩ => ⟨S10000x1, .i32⟩
  | .local _ .vmem, ⟨32, _⟩ => ⟨S256x128, .f32⟩
  | .local _ .vmem, ⟨33, _⟩ => ⟨S256x128, .f32⟩
  | .local _ .vmem, ⟨34, _⟩ => ⟨S256x1, .f32⟩
  | .local _ .vmem, ⟨35, _⟩ => ⟨S256x128, .f32⟩
  | .local _ .vmem, ⟨36, _⟩ => ⟨S256x32, .f32⟩
  | .local _ .vmem, ⟨37, _⟩ => ⟨S128x128, .f32⟩
  | .local _ .vmem, ⟨38, _⟩ => ⟨S1x128, .f32⟩
  | .local _ .vmem, ⟨39, _⟩ => ⟨S32x128, .f32⟩
  | .local _ .vmem, ⟨40, _⟩ => ⟨S1x128, .f32⟩
  | .local _ .vmem, ⟨41, _⟩ => ⟨S256x128, .f32⟩
  | .local _ .vmem, ⟨42, _⟩ => ⟨S1x128, .f32⟩
  | .local _ .vmem, ⟨43, _⟩ => ⟨S128x1, .f32⟩
  | .local _ .vmem, ⟨44, _⟩ => ⟨S1x1, .f32⟩
  | .local _ .vmem, ⟨45, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_stg7_0 : Ref sig .tc := ⟨.vmem, 42, rfl⟩
abbrev cc5_stg8_0 : Ref sig .tc := ⟨.vmem, 43, rfl⟩
abbrev cc5_stg9_0 : Ref sig .tc := ⟨.vmem, 44, rfl⟩
abbrev cc5_stg10_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem6_0 : DmaSem sig := 39
abbrev cc5_sem7_0 : DmaSem sig := 40
abbrev cc5_sem8_0 : DmaSem sig := 41
abbrev cc5_sem9_0 : DmaSem sig := 42
abbrev cc5_sem10_0 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_13 : BitVec 32 := 0#32
  let v32 : BitVec 1 := Scalar.cmpi .ne v31 c0_i32_13
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S256x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x256_d1_w32 : S1x256.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  broadcasts_S1x256_S10000x256 : S1x256.Broadcasts S10000x256
  natLt_1_32 : 1 < 32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x256_S256 : S10000x256.Reduces [0] S256
  shapeCasts_S256_S256x1 : S256.ShapeCasts S256x1
  broadcasts_S256x1_S256x128 : S256x1.Broadcasts S256x128
  shapeCasts_S1_S1x1 : S1.ShapeCasts S1x1
  inb_S256x32_S256x32_0_0 : ∀ a, (![0, 0] : Fin 2 → Nat) a + S256x32.size a ≤ S256x32.size a
  h_S256x32 : 0 < S256x32.numel
  inb_S32x128_S32x128_0_0 : ∀ a, (![0, 0] : Fin 2 → Nat) a + S32x128.size a ≤ S32x128.size a
  h_S32x128 : 0 < S32x128.numel
  broadcasts_S1x128_S256x128 : S1x128.Broadcasts S256x128
  concatenates_S256x128_S256x128_S256x256_d1 : Shape.Concatenates [S256x128, S256x128] S256x256 1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S10000x256_S10000x128_S256x128_0_0_1_1_n_n_wf : DotDims.WF S10000x256 S10000x128 S256x128 [0] [0] [1] [1] [] []
  dot_S256x128_S128x128_S256x128_1_0_0_1_n_n_wf : DotDims.WF S256x128 S128x128 S256x128 [1] [0] [0] [1] [] []
  dot_S256x32_S32x128_S256x128_1_0_0_1_n_n_wf : DotDims.WF S256x32 S32x128 S256x128 [1] [0] [0] [1] [] []
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x32.size a ≤ S256x32.size a
  hwx5_1 : ∀ i : grid5.Coords, EltTy.bits .f32 = 32 ∨ (Rect.block (s := S256x32) S256x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x128.size a ≤ S32x128.size a
  hwx5_4 : ∀ i : grid5.Coords, EltTy.bits .f32 = 32 ∨ (Rect.block (s := S32x128) S32x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x128.size a ≤ S256x128.size a
  hwx5_6 : ∀ i : grid5.Coords, EltTy.bits .f32 = 32 ∨ (Rect.block (s := S256x128) S256x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x1.size a ≤ S128x1.size a
  hwx5_8 : ∀ i : grid5.Coords, EltTy.bits .f32 = 32 ∨ (Rect.block (s := S128x1) S128x1.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1.size a ≤ S1x1.size a
  hwx5_9 : ∀ i : grid5.Coords, EltTy.bits .f32 = 32 ∨ (Rect.block (s := S1x1) S1x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S256x1.size a ≤ S256x1.size a
  hwx5_10 : ∀ i : grid5.Coords, EltTy.bits .f32 = 32 ∨ (Rect.block (s := S256x1) S256x1.size (cc5_transform_10 i) (hinb5_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S256x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v45) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S256x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S32x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg12) S256x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v48) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg14) S128x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v49) S1x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v50) S256x1.size cc5_transform_10 reads5_10 true true 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S256x32 : Shape := ⟨2, ![256, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S256 : Shape := ⟨1, ![256]⟩
abbrev S256x1 : Shape := ⟨2, ![256, 1]⟩
abbrev S256x256 : Shape := ⟨2, ![256, 256]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S256x32, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S32x128, .f32⟩
  | 11 => ⟨S128, .f32⟩
  | 12 => ⟨S256x128, .f32⟩
  | 13 => ⟨S128, .f32⟩
  | 14 => ⟨S128x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S100000, .i32⟩
  | 22 => ⟨S1700000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .i1⟩
  | 79 => ⟨S_, .f32⟩
  | 80 => ⟨S100000x128, .f32⟩
  | 81 => ⟨S100000x128, .f32⟩
  | 82 => ⟨S100000x128, .f32⟩
  | 83 => ⟨S100000x128, .f32⟩
  | 84 => ⟨S100000, .i32⟩
  | 85 => ⟨S1700000, .i32⟩
  | 86 => ⟨S1700000, .i32⟩
  | 87 => ⟨S_, .f32⟩
  | 88 => ⟨S1700000, .f32⟩
  | 89 => ⟨S_, .f32⟩
  | 90 => ⟨S100000, .f32⟩
  | 91 => ⟨S1700000x1, .i32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x64, .f32⟩

abbrev hbmTy0_1 (i : Nat) : BufTy := match i % 128 with
  | 0 => ⟨S1700000x128, .f32⟩
  | 1 => ⟨S1700000x1, .f32⟩
  | 2 => ⟨S1700000x128, .f32⟩
  | 3 => ⟨S1700000x128, .f32⟩
  | 4 => ⟨S_, .f32⟩
  | 5 => ⟨S100000x128, .f32⟩
  | 6 => ⟨S1700000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .i1⟩
  | 14 => ⟨S_, .f32⟩
  | 15 => ⟨S100000x128, .f32⟩
  | 16 => ⟨S100000x128, .f32⟩
  | 17 => ⟨S100000x128, .f32⟩
  | 18 => ⟨S_, .f32⟩
  | 19 => ⟨S256x128, .f32⟩
  | 20 => ⟨S100000x1, .i32⟩
  | 21 => ⟨S256x128, .f32⟩
  | 22 => ⟨S_, .f32⟩
  | 23 => ⟨S100000, .f32⟩
  | 24 => ⟨S_, .f32⟩
  | 25 => ⟨S256, .f32⟩
  | 26 => ⟨S100000x1, .i32⟩
  | 27 => ⟨S256, .f32⟩
  | 28 => ⟨S_, .f32⟩
  | 29 => ⟨S256, .f32⟩
  | 30 => ⟨S256, .f32⟩
  | 31 => ⟨S256x1, .f32⟩
  | 32 => ⟨S256x128, .f32⟩
  | 33 => ⟨S256x128, .f32⟩
  | 34 => ⟨S256x128, .f32⟩
  | 35 => ⟨S1x128, .f32⟩
  | 36 => ⟨S256x128, .f32⟩
  | 37 => ⟨S256x128, .f32⟩
  | 38 => ⟨S256x128, .f32⟩
  | 39 => ⟨S1x128, .f32⟩
  | 40 => ⟨S256x128, .f32⟩
  | 41 => ⟨S256x128, .f32⟩
  | 42 => ⟨S256x256, .f32⟩
  | 43 => ⟨S_, .f32⟩
  | 44 => ⟨S256x256, .f32⟩
  | 45 => ⟨S256x256, .i1⟩
  | 46 => ⟨S_, .f32⟩
  | 47 => ⟨S256x256, .f32⟩
  | 48 => ⟨S256x256, .f32⟩
  | 49 => ⟨S256x256, .f32⟩
  | 50 => ⟨S256x128, .f32⟩
  | 51 => ⟨S1x128, .f32⟩
  | 52 => ⟨S256x128, .f32⟩
  | 53 => ⟨S256x128, .f32⟩
  | 54 => ⟨S_, .f32⟩
  | 55 => ⟨S256x128, .f32⟩
  | 56 => ⟨S256x128, .i1⟩
  | 57 => ⟨S_, .f32⟩
  | 58 => ⟨S256x128, .f32⟩
  | 59 => ⟨S256x128, .f32⟩
  | 60 => ⟨S256x128, .f32⟩
  | 61 => ⟨S256x1, .f32⟩
  | 62 => ⟨S1x1, .f32⟩
  | 63 => ⟨S256x1, .f32⟩
  | 64 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v63 : Ref sig .tc := ⟨.hbm, 100, rfl⟩
abbrev main_c_15 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_17 : Ref sig .tc := ⟨.hbm, 110, rfl⟩
abbrev main_v71 : Ref sig .tc := ⟨.hbm, 111, rfl⟩
abbrev main_v72 : Ref sig .tc := ⟨.hbm, 112, rfl⟩
abbrev main_c_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_19 : Ref sig .tc := ⟨.hbm, 120, rfl⟩
abbrev main_v79 : Ref sig .tc := ⟨.hbm, 121, rfl⟩
abbrev main_v80 : Ref sig .tc := ⟨.hbm, 122, rfl⟩
abbrev main_c_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_21 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_24 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_25 : Ref sig .tc := ⟨.hbm, 150, rfl⟩
abbrev main_v103 : Ref sig .tc := ⟨.hbm, 151, rfl⟩
abbrev main_cst_26 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_27 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_28 : Ref sig .tc := ⟨.hbm, 171, rfl⟩
abbrev main_v121 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_30 : Ref sig .tc := ⟨.hbm, 182, rfl⟩
abbrev main_v130 : Ref sig .tc := ⟨.hbm, 183, rfl⟩
abbrev main_v131 : Ref sig .tc := ⟨.hbm, 184, rfl⟩
abbrev main_cst_31 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  concatenates_S256x128_S256x128_S256x256_d1 : Shape.Concatenates [S256x128, S256x128] S256x256 1
  bcast_S_S256x256 : S_.BroadcastsInDim S256x256 (![] : Fin 0 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x32_S32x128_S256x128_1_0_0_1_n_n_wf : DotDims.WF S256x32 S32x128 S256x128 [1] [0] [0] [1] [] []
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KI.Reg0.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x64 := Rect.unit (s := S5000x64) ![0, 0] S5000x64.size inb_S5000x64_S5000x64_0_0
abbrev r0_w : Rect S64x128 := Rect.unit (s := S64x128) ![0, 0] S64x128.size inb_S64x128_S64x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

def out0_3 (x0 : Vec F S5000x64 .f32) (x1 : Vec F S64x128 .f32) (x2 : Vec F S5000x1 .f32) : Vec F S5000x128 .bf16 :=
  View.canon [⟨r0_o, k0_pay1 (View.ld x0 r0_x) (View.ld x1 r0_w) (View.ld x2 r0_d)⟩]

theorem cover0_3 (p0 : Vec F S5000x128 .bf16) (y : S5000x128.Idx) :
    ∃ pc ∈ ([⟨r0_o, p0⟩] : List (View.Piece (Elt F) S5000x128 .bf16)), y ∈ pc.1.set :=
  View.cover_of_tiled [⟨r0_o, p0⟩] S5000x128.size (by rfl) y

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]

-- The body only reads its inputs: each input window enters the body holding what it leaves it with.
theorem before0 (c : Dev nD) (t : Fin cfg0.N) : ∀ w : Fin cfg0.W, w ≠ 3 → ∀ d, (dat0 V c).before w t d = (dat0 V c).after w t
  | ⟨0, _⟩, _ | ⟨1, _⟩, _ | ⟨2, _⟩, _ => fun d =>
    ((dat0 V c).before_in_eq_fetched _ rfl (fun _ => rfl) (fun _ _ _ => rfl) (fun _ => rfl) t d).trans rfl
  | ⟨3, _⟩, h => absurd rfl h

-- With every input at its block the body's triple applies; the invariant and what is owed pass through unread.
theorem body_obligation0 (c : Dev nD) : BodyObligation (dat0 (F := F) V c) (defs₀ (F := F)) Variants.none () Set.univ := fun t => by
  rw [bigSep_W0, bigSep_W0]
  show _ ⊢ wp _ _ _ (bodyAt0 t) _
  simp (disch := decide) only [before0 V c t]
  dsimp only [dat0, Dat.owesAt, Dat.bound]
  iintro ⟨HΦ, Ho, ⟨%_, H0⟩, ⟨%_, H1⟩, ⟨%_, H2⟩, ⟨%_, H3⟩⟩
  iapply sound_kernel0
  iframe
  isplitl [H3]; · iexists _; iexact H3
  iintro H
  iframe

end Cert.KernelIdeal.Hand

end
-- ==== Proof.KI.Reg1.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

def out1_3 (x0 : Vec F S5000x128 .f32) (x1 : Vec F S5000x1 .f32) (x2 : Vec F S1x128 .f32) : Vec F S5000x128 .f32 :=
  View.canon [⟨r1_0, k1_pay1 (View.ld x0 r1_0) (View.ld x1 r1_1) (View.ld x2 r1_2)⟩]

theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_leakyrelu_scale_kernel i arg1 harg1 arg2 harg2 arg3 harg3 arg4 harg4) K := by
  simp only [cc1__bias_leakyrelu_scale_kernel_eq_skeleton]; unfold cc1__bias_leakyrelu_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

-- The body only reads its inputs: each input window enters the body holding what it leaves it with.
theorem before1 (c : Dev nD) (t : Fin cfg1.N) : ∀ w : Fin cfg1.W, w ≠ 3 → ∀ d, (dat1 V c).before w t d = (dat1 V c).after w t
  | ⟨0, _⟩, _ | ⟨1, _⟩, _ | ⟨2, _⟩, _ => fun d =>
    ((dat1 V c).before_in_eq_fetched _ rfl (fun _ => rfl) (fun _ _ _ => rfl) (fun _ => rfl) t d).trans rfl
  | ⟨3, _⟩, h => absurd rfl h

-- With every input at its block the body's triple applies; the invariant and what is owed pass through unread.
theorem body_obligation1 (c : Dev nD) : BodyObligation (dat1 (F := F) V c) (defs₀ (F := F)) Variants.none () Set.univ := fun t => by
  rw [bigSep_W1, bigSep_W1]
  show _ ⊢ wp _ _ _ (bodyAt1 t) _
  simp (disch := decide) only [before1 V c t]
  dsimp only [dat1, Dat.owesAt, Dat.bound]
  iintro ⟨HΦ, Ho, ⟨%_, H0⟩, ⟨%_, H1⟩, ⟨%_, H2⟩, ⟨%_, H3⟩⟩
  iapply sound_kernel1
  iframe
  isplitl [H3]; · iexists _; iexact H3
  iintro H
  iframe

end Cert.KernelIdeal.Hand

end
-- ==== Proof.KI.Reg2.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_d : Rect S5000x1 := Rect.unit (s := S5000x1) ![0, 0] S5000x1.size inb_S5000x1_S5000x1_0_0
abbrev r2_o : Rect S5000x128 := Rect.unit (s := S5000x128) ![0, 0] S5000x128.size inb_S5000x128_S5000x128_0_0

def out2_3 (x0 : Vec F S5000x128 .f32) (x1 : Vec F S128x128 .f32) (x2 : Vec F S5000x1 .f32) : Vec F S5000x128 .bf16 :=
  View.canon [⟨r2_o, k2_pay1 (View.ld x0 r2_x) (View.ld x1 r2_w) (View.ld x2 r2_d)⟩]

theorem cover2_3 (p0 : Vec F S5000x128 .bf16) (y : S5000x128.Idx) :
    ∃ pc ∈ ([⟨r2_o, p0⟩] : List (View.Piece (Elt F) S5000x128 .bf16)), y ∈ pc.1.set :=
  View.cover_of_tiled [⟨r2_o, p0⟩] S5000x128.size (by rfl) y

set_option maxHeartbeats 1000000 in
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_scale_kernel i arg1 harg1 arg2 harg2 arg3 harg3 arg4 harg4) K := by
  simp only [cc2__matmul_scale_kernel_eq_skeleton]; unfold cc2__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]

-- The body only reads its inputs: each input window enters the body holding what it leaves it with.
theorem before2 (c : Dev nD) (t : Fin cfg2.N) : ∀ w : Fin cfg2.W, w ≠ 3 → ∀ d, (dat2 V c).before w t d = (dat2 V c).after w t
  | ⟨0, _⟩, _ | ⟨1, _⟩, _ | ⟨2, _⟩, _ => fun d =>
    ((dat2 V c).before_in_eq_fetched _ rfl (fun _ => rfl) (fun _ _ _ => rfl) (fun _ => rfl) t d).trans rfl
  | ⟨3, _⟩, h => absurd rfl h

-- With every input at its block the body's triple applies; the invariant and what is owed pass through unread.
theorem body_obligation2 (c : Dev nD) : BodyObligation (dat2 (F := F) V c) (defs₀ (F := F)) Variants.none () Set.univ := fun t => by
  rw [bigSep_W2, bigSep_W2]
  show _ ⊢ wp _ _ _ (bodyAt2 t) _
  simp (disch := decide) only [before2 V c t]
  dsimp only [dat2, Dat.owesAt, Dat.bound]
  iintro ⟨HΦ, Ho, ⟨%_, H0⟩, ⟨%_, H1⟩, ⟨%_, H2⟩, ⟨%_, H3⟩⟩
  iapply sound_kernel2
  iframe
  isplitl [H3]; · iexists _; iexact H3
  iintro H
  iframe

end Cert.KernelIdeal.Hand

end
-- ==== Proof.KI.Reg3.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S1x128 := Rect.unit (s := S1x128) ![0, 0] S1x128.size inb_S1x128_S1x128_0_0

def out3_3 (x0 : Vec F S5000x128 .f32) (x1 : Vec F S5000x1 .f32) (x2 : Vec F S1x128 .f32) : Vec F S5000x128 .f32 :=
  View.canon [⟨r3_0, k3_pay1 (View.ld x0 r3_0) (View.ld x1 r3_1) (View.ld x2 r3_2)⟩]

theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bias_leakyrelu_scale_kernel i arg1 harg1 arg2 harg2 arg3 harg3 arg4 harg4) K := by
  simp only [cc3__bias_leakyrelu_scale_kernel_eq_skeleton]; unfold cc3__bias_leakyrelu_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

-- The body only reads its inputs: each input window enters the body holding what it leaves it with.
theorem before3 (c : Dev nD) (t : Fin cfg3.N) : ∀ w : Fin cfg3.W, w ≠ 3 → ∀ d, (dat3 V c).before w t d = (dat3 V c).after w t
  | ⟨0, _⟩, _ | ⟨1, _⟩, _ | ⟨2, _⟩, _ => fun d =>
    ((dat3 V c).before_in_eq_fetched _ rfl (fun _ => rfl) (fun _ _ _ => rfl) (fun _ => rfl) t d).trans rfl
  | ⟨3, _⟩, h => absurd rfl h

-- With every input at its block the body's triple applies; the invariant and what is owed pass through unread.
theorem body_obligation3 (c : Dev nD) : BodyObligation (dat3 (F := F) V c) (defs₀ (F := F)) Variants.none () Set.univ := fun t => by
  rw [bigSep_W3, bigSep_W3]
  show _ ⊢ wp _ _ _ (bodyAt3 t) _
  simp (disch := decide) only [before3 V c t]
  dsimp only [dat3, Dat.owesAt, Dat.bound]
  iintro ⟨HΦ, Ho, ⟨%_, H0⟩, ⟨%_, H1⟩, ⟨%_, H2⟩, ⟨%_, H3⟩⟩
  iapply sound_kernel3
  iframe
  isplitl [H3]; · iexists _; iexact H3
  iintro H
  iframe

end Cert.KernelIdeal.Hand

end
-- ==== Proof.KI.Reg4.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off00 : (![0, 0] : Fin 2 → ℕ) = fun _ => 0 := by
  funext a; fin_cases a <;> rfl

theorem readAt_unit_zero_unread {sp : Space} {r : ℕ} {sz : Fin r → ℕ} {e : EltTy} (m : Memref sig .tc sp ⟨r, sz⟩ e) (h : m.IsWhole)
    {off : Fin r → ℕ} (hoff : off = fun _ => 0) (inb : ∀ a, off a + sz a ≤ sz a) (X : Shape.Idx ⟨r, sz⟩ → Elt F e) :
    View.readAt (Elt F) m.view (Rect.unit off sz inb).toLoadRect (h.unread X) = X := by
  rw [View.readAt_eq_ld, h.read_unread, View.ld_unit_zero hoff]

theorem read_writes_cons_unit_zero {sp : Space} {r : ℕ} {sz : Fin r → ℕ} {e : EltTy} (v : View sig .tc sp ⟨r, sz⟩ e) (f : v.ty.Contents (Elt F))
    {off : Fin r → ℕ} (hoff : off = fun _ => 0) (inb : ∀ a, off a + sz a ≤ sz a) (w : Shape.Idx ⟨r, sz⟩ → Elt F e)
    (L : List (View.Piece (Elt F) ⟨r, sz⟩ e)) :
    v.read (Elt F) (v.writes (Elt F) f (⟨Rect.unit off sz inb, w⟩ :: L)) = w := by
  rw [View.read_writes_eq_canon _ _ _ (fun y => ⟨_, List.mem_cons_self, View.mem_set_unit_zero hoff inb y⟩),
    View.canon_cons_unit_zero hoff]

theorem readCov_cons_unit_zero {sp : Space} {r : ℕ} {sz : Fin r → ℕ} {e : EltTy} (v : View sig .tc sp ⟨r, sz⟩ e)
    {off : Fin r → ℕ} (hoff : off = fun _ => 0) (inb : ∀ a, off a + sz a ≤ sz a) (w : Shape.Idx ⟨r, sz⟩ → Elt F e)
    (L : List (View.Piece (Elt F) ⟨r, sz⟩ e)) :
    v.readCov (⟨Rect.unit off sz inb, w⟩ :: L) (Rect.unit off sz inb).toLoadRect = w := by
  rw [View.readCov_eq_canon_ld _ _ _ (fun y => ⟨_, List.mem_cons_self, View.mem_set_unit_zero hoff inb y⟩),
    View.canon_cons_unit_zero hoff, View.ld_unit_zero hoff]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sAt (c : Dev nD) : ℕ → Vec F S256x128 .f32
  | 0 => k4_pay1
  | n + 1 => if h : n < cfg4.N then k4_pay4 (iblk4 V c 1 ⟨n, h⟩) (iblk4 V c 0 ⟨n, h⟩) (sAt c n) else sAt c n

def cAt (c : Dev nD) : ℕ → Vec F S256x1 .f32
  | 0 => k4_pay2
  | n + 1 => if h : n < cfg4.N then k4_pay5 (iblk4 V c 1 ⟨n, h⟩) (cAt c n) else cAt c n

theorem sAt_succ (c : Dev nD) (t : Fin cfg4.N) :
    sAt V c (t.val + 1) = k4_pay4 (iblk4 V c 1 t) (iblk4 V c 0 t) (sAt V c t.val) := by
  rw [sAt, dif_pos t.isLt]

theorem cAt_succ (c : Dev nD) (t : Fin cfg4.N) :
    cAt V c (t.val + 1) = k4_pay5 (iblk4 V c 1 t) (cAt V c t.val) := by
  rw [cAt, dif_pos t.isLt]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (sAt V c 10) (cAt V c 10)
  Φ t := iprop((∃ r, prngReg c r)
    ∗ (if t.val = 0 then iprop(∃ d, owns (c : Thread nD τ) (Memref.whole cc4_scratch0) fullShare d) else owns (c : Thread nD τ) (Memref.whole cc4_scratch0) fullShare (sAt V c t.val))
    ∗ (if t.val = 0 then iprop(∃ d, owns (c : Thread nD τ) (Memref.whole cc4_scratch1) fullShare d) else owns (c : Thread nD τ) (Memref.whole cc4_scratch1) fullShare (cAt V c t.val))
    ∗ Pipeline.scopedRestBut (Ix := Unit) (Name := ℕ) (U := UR sig nD τ) (Lvl := ℕ) (Val := Elt F) spec4 c [cc4_scratch0, cc4_scratch1])
  q _ := fullShare
  owed _ := 0

theorem after4_2 (c : Dev nD) (t : Fin cfg4.N) : (dat4 V c).after 2 t = k4_pay6 (sAt V c 10) (cAt V c 10) := by dsimp only [dat4]

abbrev cond4_1 (i : grid4.Coords) : Prop := (Scalar.cmpi .ne (Scalar.extui (Scalar.cmpi .eq (BitVec.ofNat 32 (i 0).val) 0#32)) 0#32) = 1#1

theorem hcond4_1 : ∀ t : Fin cfg4.N, cond4_1 (grid4.coords t) ↔ t.val = 0 :=
  (by decide +kernel : ∀ t : Fin grid4.N, cond4_1 (grid4.coords t) ↔ t.val = 0)

theorem hcond4_2 : ∀ t : Fin cfg4.N, k4_cond2 (grid4.coords t) = 1#1 ↔ t.val = 9 :=
  (by decide +kernel : ∀ t : Fin grid4.N, k4_cond2 (grid4.coords t) = 1#1 ↔ t.val = 9)

set_option maxHeartbeats 1000000 in

theorem kernelRun4_A (c : Dev nD) (i : grid4.Coords)
    (arg1 : Memref sig .tc .vmem S10000x128 .f32) (harg1 : arg1.IsWhole) (arg2 : Memref sig .tc .vmem S10000x1 .i32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x1 .f32) (harg5 : arg5.IsWhole)
    (hc1 : cond4_1 i) (hc2 : ¬k4_cond2 i = 1#1)
    (x0 : Vec F S10000x128 .f32) (x1 : Vec F S10000x1 .i32)
    (E : Set ℕ) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg4 fullShare (k4_pay4 x1 x0 k4_pay1) ∗ owns (c : Thread nD τ) arg5 fullShare (k4_pay5 x1 k4_pay2)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d4, %f4, -, H4⟩, ⟨%d5, %f5, -, H5⟩, Hk⟩
  obtain rfl := harg1.eq_unread hf0; obtain rfl := harg2.eq_unread hf1
  sl_exec (disch := first | exact hc1 | exact hc2)
  sl_step
  iapply Hk
  isplitl [H0]; swap; isplitl [H1]; swap; isplitl [H4]
  all_goals (iexists _; isplitr; swap; · iassumption
             ipureintro; (try sl_unfold_run_names)
             simp (disch := exact off00) only [Memref.IsWhole.read_unread, read_writes_cons_unit_zero, readCov_cons_unit_zero, readAt_unit_zero_unread])

set_option maxHeartbeats 1000000 in

theorem kernelRun4_B (c : Dev nD) (i : grid4.Coords)
    (arg1 : Memref sig .tc .vmem S10000x128 .f32) (harg1 : arg1.IsWhole) (arg2 : Memref sig .tc .vmem S10000x1 .i32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x1 .f32) (harg5 : arg5.IsWhole)
    (hc1 : ¬cond4_1 i) (hc2 : ¬k4_cond2 i = 1#1)
    (x0 : Vec F S10000x128 .f32) (x1 : Vec F S10000x1 .i32) (s : Vec F S256x128 .f32) (k : Vec F S256x1 .f32)
    (E : Set ℕ) (K : PUnit → sProp 𝕄) :
    iprop(owns (c : Thread nD τ) arg1 fullShare x0 ∗ owns (c : Thread nD τ) arg2 fullShare x1
        ∗ owns (c : Thread nD τ) arg4 fullShare s ∗ owns (c : Thread nD τ) arg5 fullShare k
        ∗ (iprop(owns (c : Thread nD τ) arg1 fullShare x0 ∗ owns (c : Thread nD τ) arg2 fullShare x1
            ∗ owns (c : Thread nD τ) arg4 fullShare (k4_pay4 x1 x0 s) ∗ owns (c : Thread nD τ) arg5 fullShare (k4_pay5 x1 k)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f4, %hf4, H4⟩, ⟨%f5, %hf5, H5⟩, Hk⟩
  obtain rfl := harg1.eq_unread hf0; obtain rfl := harg2.eq_unread hf1
  obtain rfl := harg4.eq_unread hf4; obtain rfl := harg5.eq_unread hf5
  sl_exec (disch := first | exact hc1 | exact hc2)
  sl_step
  iapply Hk
  isplitl [H0]; swap; isplitl [H1]; swap; isplitl [H4]
  all_goals (iexists _; isplitr; swap; · iassumption
             ipureintro; (try sl_unfold_run_names)
             simp (disch := exact off00) only [Memref.IsWhole.read_unread, read_writes_cons_unit_zero, readCov_cons_unit_zero, readAt_unit_zero_unread])

set_option maxHeartbeats 1000000 in

theorem kernelRun4_C (c : Dev nD) (i : grid4.Coords)
    (arg1 : Memref sig .tc .vmem S10000x128 .f32) (harg1 : arg1.IsWhole) (arg2 : Memref sig .tc .vmem S10000x1 .i32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x1 .f32) (harg5 : arg5.IsWhole)
    (hc1 : ¬cond4_1 i) (hc2 : k4_cond2 i = 1#1)
    (x0 : Vec F S10000x128 .f32) (x1 : Vec F S10000x1 .i32) (s : Vec F S256x128 .f32) (k : Vec F S256x1 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s ∗ owns (c : Thread nD τ) arg5 fullShare k
        ∗ (iprop(owns (c : Thread nD τ) arg1 fullShare x0 ∗ owns (c : Thread nD τ) arg2 fullShare x1
            ∗ owns (c : Thread nD τ) arg3 fullShare (k4_pay6 (k4_pay4 x1 x0 s) (k4_pay5 x1 k))
            ∗ owns (c : Thread nD τ) arg4 fullShare (k4_pay4 x1 x0 s) ∗ owns (c : Thread nD τ) arg5 fullShare (k4_pay5 x1 k)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  obtain rfl := harg1.eq_unread hf0; obtain rfl := harg2.eq_unread hf1
  obtain rfl := harg4.eq_unread hf4; obtain rfl := harg5.eq_unread hf5
  sl_exec (disch := first | exact hc1 | exact hc2)
  sl_step
  iapply Hk
  isplitl [H0]; swap; isplitl [H1]; swap; isplitl [H3]; swap; isplitl [H4]
  all_goals (iexists _; isplitr; swap; · iassumption
             ipureintro; (try sl_unfold_run_names)
             simp (disch := exact off00) only [Memref.IsWhole.read_unread, read_writes_cons_unit_zero, readCov_cons_unit_zero, readAt_unit_zero_unread])

-- The body only reads its inputs: each input window enters the body holding what it leaves it with.
theorem before4 (c : Dev nD) (t : Fin cfg4.N) : ∀ w : Fin cfg4.W, w ≠ 2 → ∀ d, (dat4 V c).before w t d = (dat4 V c).after w t
  | ⟨0, _⟩, _ | ⟨1, _⟩, _ => fun d =>
    ((dat4 V c).before_in_eq_fetched _ rfl (fun _ => rfl) (fun _ _ _ => rfl) (fun _ => rfl) t d).trans rfl
  | ⟨2, _⟩, h => absurd rfl h

theorem hidle4_2 : ∀ t : Fin cfg4.N, cfg4.idle 2 (cfg4.grid.coords t) = true ↔ ¬t.val = 9 :=
  (by decide +kernel : ∀ t : Fin grid4.N, idle4 2 (grid4.coords t) = true ↔ ¬t.val = 9)

-- By the point: the first starts the two running sums, the last also stores their quotient, the rest only add to them.
theorem body_obligation4 (c : Dev nD) : BodyObligation (dat4 (F := F) V c) (defs₀ (F := F)) Variants.none () Set.univ := fun t => by
  rw [bigSep_W4, bigSep_W4]
  show _ ⊢ wp _ _ _ (bodyAt4 t) fun _ => iprop(_ ∗ _ ∗ owns _ _ _ _ ∗ owns _ _ _ _ ∗ (dat4 V c).leavesExact 2 t)
  simp (disch := decide) only [before4 V c t]
  dsimp only [dat4, Dat.owesAt, Dat.bound]
  rw [Fin.coe_castSucc, Fin.val_succ, if_neg (Nat.succ_ne_zero _), if_neg (Nat.succ_ne_zero _), sAt_succ, cAt_succ]
  have hN : t.val < 10 := lt_of_lt_of_eq t.isLt (show cfg4.N = 10 from N_4)
  have hfl (h : ¬t.val = 9) : (cfg4.win 2).flush t = false := Bool.eq_false_iff.mpr fun h' => by have := (flush4_2 t).mp h'; omega
  by_cases h0 : t.val = 0
  · have hc2 : ¬k4_cond2 (grid4.coords t) = 1#1 := fun h => by have := (hcond4_2 t).mp h; omega
    rw [Dat.leavesExact_idle _ 2 t ((hidle4_2 t).mpr (by omega)) (hfl (by omega)), if_pos h0, if_pos h0, h0, sAt, cAt]
    iintro ⟨⟨Hr, HS0, HS1, HR⟩, Ho, ⟨%_, H0⟩, ⟨%_, H1⟩, H2⟩
    iapply (kernelRun4_A c _ _ _ _ _ _ _ _ _ _ _ ((hcond4_1 t).mpr h0) hc2)
    iframe
    iintro ⟨H0, H1, HS0, HS1⟩
    iframe
  · have hc1 : ¬cond4_1 (grid4.coords t) := fun h => h0 ((hcond4_1 t).mp h)
    rw [if_neg h0, if_neg h0]
    by_cases h9 : t.val = 9
    · have hs10 : sAt V c 10 = k4_pay4 (iblk4 V c 1 t) (iblk4 V c 0 t) (sAt V c t.val) :=
        (congrArg (sAt V c) (show (10 : ℕ) = t.val + 1 by omega)).trans (sAt_succ V c t)
      have hk10 : cAt V c 10 = k4_pay5 (iblk4 V c 1 t) (cAt V c t.val) :=
        (congrArg (cAt V c) (show (10 : ℕ) = t.val + 1 by omega)).trans (cAt_succ V c t)
      unfold Dat.leavesExact
      rw [Bool.eq_false_iff.mpr fun h => (hidle4_2 t).mp h h9]
      dsimp only
      rw [hs10, hk10]
      iintro ⟨⟨Hr, HS0, HS1, HR⟩, Ho, ⟨%_, H0⟩, ⟨%_, H1⟩, ⟨%_, H2⟩⟩
      iapply (kernelRun4_C c _ _ _ _ _ _ _ _ _ _ _ hc1 ((hcond4_2 t).mpr h9))
      iframe
      isplitl [H2]; · iexists _; iexact H2
      iintro ⟨H0, H1, H2, HS0, HS1⟩
      iframe
    · rw [Dat.leavesExact_idle _ 2 t ((hidle4_2 t).mpr h9) (hfl h9)]
      iintro ⟨⟨Hr, HS0, HS1, HR⟩, Ho, ⟨%_, H0⟩, ⟨%_, H1⟩, H2⟩
      iapply (kernelRun4_B c _ _ _ _ _ _ _ _ _ _ _ hc1 fun h => h9 ((hcond4_2 t).mp h))
      iframe
      iintro ⟨H0, H1, HS0, HS1⟩
      iframe

theorem hin4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [scopedRest4_split]
  dsimp only [dat4]
  simp only [Fin.val_zero, ↓reduceIte, owns_whole]
  iintro ⟨Hr, ⟨H0, H1⟩, HR⟩
  iframe

theorem hout4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := by
  have hN : ¬ (Fin.last cfg4.N).val = 0 := by rw [Fin.val_last, show cfg4.N = 10 from N_4]; decide
  rw [scopedRest4_split]
  dsimp only [dat4]
  rw [if_neg hN, if_neg hN]
  simp only [owns_whole]
  iintro ⟨Hr, H0, H1, HR⟩
  iframe
  isplitl [H0]
  · iexists _; iexact H0
  · iexists _; iexact H1

end Cert.KernelIdeal.Hand

end
-- ==== Proof.KI.Reg5.lean ====
import proofs.«431255_j67791763800785_3_alg».proof.Proof.Gen.KernelIdeal.Launch
import proofs.«431255_j67791763800785_3_alg».proof.Proof.Gen.KernelIdeal.Skeleton
import proofs.«431255_j67791763800785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_10 : Rect S256x1 := Rect.unit (s := S256x1) ![0, 0] S256x1.size inb_S256x1_S256x1_0_0

def out5_10 (x0 : Vec F S256x128 .f32) (x1 : Vec F S256x32 .f32) (x2 : Vec F S128x128 .f32) (x3 : Vec F S1x128 .f32) (x4 : Vec F S32x128 .f32) (x5 : Vec F S1x128 .f32) (x6 : Vec F S256x128 .f32) (x7 : Vec F S1x128 .f32) (x8 : Vec F S128x1 .f32) (x9 : Vec F S1x1 .f32) : Vec F S256x1 .f32 :=
  View.canon [⟨r5_10, k5_pay1 (k5_pay2 (View.ld x0 (Rect.unit (s := S256x128) ![0, 0] S256x128.size inb_S256x128_S256x128_0_0)) (View.ld x1 (Rect.unit (s := S256x32) ![0, 0] S256x32.size inb_S256x32_S256x32_0_0)) (View.ld x2 (Rect.unit (s := S128x128) ![0, 0] S128x128.size inb_S128x128_S128x128_0_0)) (View.ld x4 (Rect.unit (s := S32x128) ![0, 0] S32x128.size inb_S32x128_S32x128_0_0)) (View.ld x3 (Rect.unit (s := S1x128) ![0, 0] S1x128.size inb_S1x128_S1x128_0_0)) (View.ld x5 (Rect.unit (s := S1x128) ![0, 0] S1x128.size inb_S1x128_S1x128_0_0)) (View.ld x6 (Rect.unit (s := S256x128) ![0, 0] S256x128.size inb_S256x128_S256x128_0_0)) (View.ld x7 (Rect.unit (s := S1x128) ![0, 0] S1x128.size inb_S1x128_S1x128_0_0))) (k5_pay3 (View.ld x0 (Rect.unit (s := S256x128) ![0, 0] S256x128.size inb_S256x128_S256x128_0_0)) (View.ld x1 (Rect.unit (s := S256x32) ![0, 0] S256x32.size inb_S256x32_S256x32_0_0)) (View.ld x2 (Rect.unit (s := S128x128) ![0, 0] S128x128.size inb_S128x128_S128x128_0_0)) (View.ld x4 (Rect.unit (s := S32x128) ![0, 0] S32x128.size inb_S32x128_S32x128_0_0)) (View.ld x3 (Rect.unit (s := S1x128) ![0, 0] S1x128.size inb_S1x128_S1x128_0_0)) (View.ld x5 (Rect.unit (s := S1x128) ![0, 0] S1x128.size inb_S1x128_S1x128_0_0)) (View.ld x6 (Rect.unit (s := S256x128) ![0, 0] S256x128.size inb_S256x128_S256x128_0_0)) (View.ld x7 (Rect.unit (s := S1x128) ![0, 0] S1x128.size inb_S1x128_S1x128_0_0))) (k5_pay4 (F := F)) (View.ld x8 (Rect.unit (s := S128x1) ![0, 0] S128x1.size inb_S128x1_S128x1_0_0)) (View.ld x9 (Rect.unit (s := S1x1) ![0, 0] S1x1.size inb_S1x1_S1x1_0_0))⟩]

theorem cover5_10 (p0 : Vec F S256x1 .f32) (y : S256x1.Idx) :
    ∃ pc ∈ ([⟨r5_10, p0⟩] : List (View.Piece (Elt F) S256x1 .f32)), y ∈ pc.1.set :=
  View.cover_of_tiled [⟨r5_10, p0⟩] S256x1.size (by rfl) y

set_option maxHeartbeats 1000000 in
theorem sound_kernel5 (c : Dev nD) (E : Set ℕ) (i : grid5.Coords) (arg0 : Memref sig .tc .vmem S256x128 .f32) (harg0 : arg0.IsWhole) (arg1 : Memref sig .tc .vmem S256x32 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S256x1 .f32) (harg10 : arg10.IsWhole)
    (x0 : Vec F S256x128 .f32) (x1 : Vec F S256x32 .f32) (x2 : Vec F S128x128 .f32) (x3 : Vec F S1x128 .f32) (x4 : Vec F S32x128 .f32) (x5 : Vec F S1x128 .f32) (x6 : Vec F S256x128 .f32) (x7 : Vec F S1x128 .f32) (x8 : Vec F S128x1 .f32) (x9 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out5_10 x0 x1 x2 x3 x4 x5 x6 x7 x8 x9)) -∗ K ⟨⟩))
      ⊢ wp frame (wpE (defs₀ (F := F)) Variants.none c none) E (cc5__fusion_kernel i arg0 harg0 arg1 harg1 arg2 harg2 arg3 harg3 arg4 harg4 arg5 harg5 arg6 harg6 arg7 harg7 arg8 harg8 arg9 harg9 arg10 harg10) K := by
  simp only [cc5__fusion_kernel_eq_skeleton]; unfold cc5__fusion_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q _ := fullShare
  owed _ := 0

theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

-- The body only reads its inputs: each input window enters the body holding what it leaves it with.
theorem before5 (c : Dev nD) (t : Fin cfg5.N) : ∀ w : Fin cfg5.W, w ≠ 10 → ∀ d, (dat5 V c).before w t d = (dat5 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => fun d =>
    ((dat5 V c).before_in_eq_fetched _ rfl (fun _ => rfl) (fun _ _ _ => rfl) (fun _ => rfl) t d).trans rfl
  | ⟨10, _⟩, h => absurd rfl h

-- With every input at its block the body's triple applies; the invariant and what is owed pass through unread.
theorem body_obligation5 (c : Dev nD) : BodyObligation (dat5 (F := F) V c) (defs₀ (F := F)) Variants.none () Set.univ := fun t => by
  rw [bigSep_W5, bigSep_W5]
  show _ ⊢ wp _ _ _ (bodyAt5 t) _
  simp (disch := decide) only [before5 V c t]
  dsimp only [dat5, Dat.owesAt, Dat.bound]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel5
  iframe
  isplitl [H10]; · iexists _; iexact H10
  iintro H
  iframe

end Cert.KernelIdeal.Hand

end
-- ==== Proof.KI.Run.lean ====
import proofs.«431255_j67791763800785_3_alg».proof.Proof.Gen.KernelIdeal.Regions
import proofs.«431255_j67791763800785_3_alg».proof.Proof.KI.Reg0
import proofs.«431255_j67791763800785_3_alg».proof.Proof.KI.Reg1
import proofs.«431255_j67791763800785_3_alg».proof.Proof.KI.Reg2
import proofs.«431255_j67791763800785_3_alg».proof.Proof.KI.Reg3
import proofs.«431255_j67791763800785_3_alg».proof.Proof.KI.Reg4
import proofs.«431255_j67791763800785_3_alg».proof.Proof.KI.Reg5

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev tv (W : Dev nD → Valuation τ sig (Elt F)) : (c : Dev nD) → (b : Ref sig .tc) → Buf (Elt F) ((c : Thread nD τ).loc b) :=
  fun c b => W c b

abbrev e3 : Dev nD → Valuation τ sig (Elt F) := fun c => Gen.V3 m c

def o4 (c : Dev nD) : Buf (Elt F) ((c : Thread nD τ).loc main_v16) := (dat0 (tv (e3 m)) c).arrAt 3 cfg0.N

abbrev x4 : Dev nD → Valuation τ sig (Elt F) := fun c => Function.update (e3 m c) main_v16 (o4 m c)

abbrev e5 : Dev nD → Valuation τ sig (Elt F) := fun c => StableHlo.after hostOps1 (x4 m c)
def o6 (c : Dev nD) : Buf (Elt F) ((c : Thread nD τ).loc main_v29) := (dat1 (tv (e5 m)) c).arrAt 3 cfg1.N

abbrev x6 : Dev nD → Valuation τ sig (Elt F) := fun c => Function.update (e5 m c) main_v29 (o6 m c)
def o7 (c : Dev nD) : Buf (Elt F) ((c : Thread nD τ).loc main_v30) := (dat2 (tv (x6 m)) c).arrAt 3 cfg2.N
abbrev x7 : Dev nD → Valuation τ sig (Elt F) := fun c => Function.update (x6 m c) main_v30 (o7 m c)

abbrev e8 : Dev nD → Valuation τ sig (Elt F) := fun c => StableHlo.after hostOps3 (x7 m c)
def o9 (c : Dev nD) : Buf (Elt F) ((c : Thread nD τ).loc main_v43) := (dat3 (tv (e8 m)) c).arrAt 3 cfg3.N
abbrev x9 : Dev nD → Valuation τ sig (Elt F) := fun c => Function.update (e8 m c) main_v43 (o9 m c)

abbrev e10 : Dev nD → Valuation τ sig (Elt F) := fun c => StableHlo.after hostOps4 (x9 m c)
def o11 (c : Dev nD) : Buf (Elt F) ((c : Thread nD τ).loc main_v45) := (dat4 (tv (e10 m)) c).arrAt 2 cfg4.N
abbrev x11 : Dev nD → Valuation τ sig (Elt F) := fun c => Function.update (e10 m c) main_v45 (o11 m c)

abbrev e12 : Dev nD → Valuation τ sig (Elt F) := fun c => StableHlo.after hostOps5 (x11 m c)
def o13 (c : Dev nD) : Buf (Elt F) ((c : Thread nD τ).loc main_v50) := (dat5 (tv (e12 m)) c).arrAt 10 cfg5.N
abbrev x13 : Dev nD → Valuation τ sig (Elt F) := fun c => Function.update (e12 m c) main_v50 (o13 m c)

def outs : Gen.Outs (F := F) := fun J r c => match J with
  | 4 => x4 m c r | 6 => x6 m c r | 7 => x7 m c r | 9 => x9 m c r | 11 => x11 m c r | _ => x13 m c r

-- `update V a v` is unchanged by updating it again at `a` with its own value there.
theorem update_at {V V' : Valuation τ sig (Elt F)} (h : V' = V) {a : DevRef τ sig} (v : a.ty.Contents (Elt F)) :
    Function.update V' a (Function.update V a v a) = Function.update V a v := by
  subst h; rw [Function.update_self]

theorem V4_eq (c : Dev nD) : Gen.V4 m (outs m) c = x4 m c := update_at rfl _
theorem V5_eq (c : Dev nD) : Gen.V5 m (outs m) c = e5 m c := congrArg (StableHlo.after hostOps1) (V4_eq m c)
theorem V6_eq (c : Dev nD) : Gen.V6 m (outs m) c = x6 m c := update_at (V5_eq m c) _
theorem V7_eq (c : Dev nD) : Gen.V7 m (outs m) c = x7 m c := update_at (V6_eq m c) _
theorem V8_eq (c : Dev nD) : Gen.V8 m (outs m) c = e8 m c := congrArg (StableHlo.after hostOps3) (V7_eq m c)
theorem V9_eq (c : Dev nD) : Gen.V9 m (outs m) c = x9 m c := update_at (V8_eq m c) _
theorem V10_eq (c : Dev nD) : Gen.V10 m (outs m) c = e10 m c := congrArg (StableHlo.after hostOps4) (V9_eq m c)
theorem V11_eq (c : Dev nD) : Gen.V11 m (outs m) c = x11 m c := update_at (V10_eq m c) _
theorem V12_eq (c : Dev nD) : Gen.V12 m (outs m) c = e12 m c := congrArg (StableHlo.after hostOps5) (V11_eq m c)
theorem V13_eq (c : Dev nD) : Gen.V13 m (outs m) c = x13 m c := update_at (V12_eq m c) _

def pdats : (p : Fin 6) → (c : Dev nD) → Dat τ (Elt F) Unit ℕ (UR sig nD τ) ℕ (cfgs p) c
  | ⟨0, _⟩ => fun c => dat0 (tv (e3 m)) c
  | ⟨1, _⟩ => fun c => dat1 (tv (e5 m)) c
  | ⟨2, _⟩ => fun c => dat2 (tv (x6 m)) c
  | ⟨3, _⟩ => fun c => dat3 (tv (e8 m)) c
  | ⟨4, _⟩ => fun c => dat4 (tv (e10 m)) c
  | ⟨5, _⟩ => fun c => dat5 (tv (e12 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section Region

variable {p : Fin 6} (la : Pipeline.LaunchFacts (nD := nD) (τ := τ) cfgs p) (wo : Fin (cfgs p).W)
  (e : Dev nD → Valuation τ sig (Elt F))

abbrev exitOf (c : Dev nD) : Valuation τ sig (Elt F) :=
  Function.update (e c) (Pipeline.arrRef (cfgs p).spec wo) ((pdats m p c).arrAt wo (cfgs p).N)

variable (hA : ∀ c w, (pdats m p c).A w = e c (Pipeline.arrRef (cfgs p).spec w))
  (hq : ∀ c w, (pdats m p c).q w = fullShare)
  (hin : ∀ w, w ≠ wo → ((cfgs p).win w).isOut = false)

include la hA hin in
-- `Function.update` at one reference changes no other, and `arrRef` is injective.
theorem exit_arr (c : Dev nD) (w : Fin (cfgs p).W) :
    (pdats m p c).arrAt w (cfgs p).N = exitOf m wo e c (Pipeline.arrRef (cfgs p).spec w) := by
  by_cases hw : w = wo
  · subst hw; unfold exitOf; rw [Function.update_self]
  · exact (Pipeline.Dat.arrAt_in _ w (hin w hw) _).trans ((hA c w).trans
      (Function.update_of_ne (StableHlo.devRef_ne_of_ne fun h => hw (la.win.arr_inj h)) _ _).symm)

-- The six regions are this one record at six choices of the constants.
def regOf (hbody : ∀ c, Pipeline.BodyObligation (pdats m p c) (defs₀ (F := F)) 𝒱₀ () Set.univ)
    (howed : ∀ c t, (pdats m p c).owed t = 0) (hrec : ∀ c x, x ∈ (pdats m p c).recorded 0)
    (hΦin : ∀ c, (iprop((∃ r, prngReg c r) ∗ Pipeline.scopedRest (Ix := Unit) (Name := ℕ) (U := UR sig nD τ) (Lvl := ℕ) (Val := Elt F) (cfgs p).spec c) : sProp 𝕄)
      ⊢ (pdats m p c).Φ 0)
    (hΦout : ∀ c, (pdats m p c).Φ (Fin.last (cfgs p).N)
      ⊢ (iprop((∃ r, prngReg c r) ∗ Pipeline.scopedRest (Ix := Unit) (Name := ℕ) (U := UR sig nD τ) (Lvl := ℕ) (Val := Elt F) (cfgs p).spec c) : sProp 𝕄)) :
    Pipeline.RegionSeg (pcfgs (F := F)) Gen.adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (e c) ∗ R c)
  post c := iprop(StableHlo.held (c : Thread nD τ) (Pipeline.ucRefs τ sig) (exitOf m wo e c) ∗ R c)
  X c := iprop(∃ r, prngReg c r)
  Y c := iprop(∃ r, prngReg c r)
  Z c := Pipeline.unscopedRest (Ix := Unit) (Name := ℕ) (U := UR sig nD τ) (Lvl := ℕ) (cfgs p).spec c (tv e c)
  hentry c := by
    rw [Pipeline.ownSems0_none]
    have hsplit := Pipeline.arrays_of_unscopedBufs (p := p) (pcfgs (F := F)) Gen.adm (pdats m) la.win la.arr_whole c
      ((pdats m p c).share_full (hq c)) (tv e c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c _)
      rw [howed]; iexact HO
    isplitl [Hp]; · iexact Hp
    iexact Hrest
  hin c := by
    iintro ⟨Hp, -, Hr⟩
    iapply (hΦin c)
    isplitl [Hp]; · iexact Hp
    iexact Hr
  hout c := by
    rw [Pipeline.ownSems0_none]
    iintro H
    ihave H' := (hΦout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      la.win la.arr_whole c (pdats m) ((pdats m p c).share_full (hq c))
      (tv e c) (tv (exitOf m wo e) c) ((pdats m p c).arrAt · (cfgs p).N) (exit_arr m la wo e hA hin c)
      fun b hb => Function.update_of_ne (StableHlo.devRef_ne_of_ne fun h => hb (Finset.mem_image.mpr ⟨wo, Finset.mem_univ _, h.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end Region

def reg0 := regOf m launch0 ⟨3, by decide⟩ (e3 m) (fun _ _ => rfl) (fun _ _ => rfl) (by decide) (body_obligation0 (tv (e3 m))) (fun _ _ => rfl) (fun _ _ => trivial) (fun _ => sep_comm) fun _ => sep_comm
def reg1 := regOf m launch1 ⟨3, by decide⟩ (e5 m) (fun _ _ => rfl) (fun _ _ => rfl) (by decide) (body_obligation1 (tv (e5 m))) (fun _ _ => rfl) (fun _ _ => trivial) (fun _ => sep_comm) fun _ => sep_comm
def reg2 := regOf m launch2 ⟨3, by decide⟩ (x6 m) (fun _ _ => rfl) (fun _ _ => rfl) (by decide) (body_obligation2 (tv (x6 m))) (fun _ _ => rfl) (fun _ _ => trivial) (fun _ => sep_comm) fun _ => sep_comm
def reg3 := regOf m launch3 ⟨3, by decide⟩ (e8 m) (fun _ _ => rfl) (fun _ _ => rfl) (by decide) (body_obligation3 (tv (e8 m))) (fun _ _ => rfl) (fun _ _ => trivial) (fun _ => sep_comm) fun _ => sep_comm
def reg4 := regOf m launch4 ⟨2, by decide⟩ (e10 m) (fun _ _ => rfl) (fun _ _ => rfl) (by decide) (body_obligation4 (tv (e10 m))) (fun _ _ => rfl) (fun _ _ => trivial) (hin4 (tv (e10 m))) (hout4 (tv (e10 m)))
def reg5 := regOf m launch5 ⟨10, by decide⟩ (e12 m) (fun _ _ => rfl) (fun _ _ => rfl) (by decide) (body_obligation5 (tv (e12 m))) (fun _ _ => rfl) (fun _ _ => trivial) (fun _ => sep_comm) fun _ => sep_comm

theorem held_of_eq {c : Dev nD} {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := h ▸ .rfl
theorem hE6 (c : Dev nD) : (R c : sProp 𝕄) ⊢ iprop(∃ W, owes (c : Thread nD τ) (0 : CellTallies nD τ sig Unit) W) := by
  iintro ⟨-, HO⟩
  iexact HO
abbrev u₀ := initOf (Pipeline.cells cfgs cellOf_inj) (Pipeline.launchToks cfgs cellOf_inj)
theorem hu₀ : (ownU u₀ : sProp 𝕄)
    ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄)
        ⊢ BI.own (emb₁ u₀) from .rfl)
    iexact Hu
  iapply (show (BI.emp : sProp 𝕄) ⊢ bigSep Finset.univ (fun _ : Dev nD => (BI.emp : sProp 𝕄)) from by rw [BI.bigSep_emp_const])
  iempintro
theorem hR (ρ : Dev nD → PrngReg) (c : Dev nD) : (iprop(unscopedSems0 c ∗ owes (c : Thread nD τ) (0 : CellTallies nD τ sig Unit) ∅
    ∗ Pipeline.launchCred (fun _ : Dev nD => (0 : CellTallies nD τ sig Unit)) c ∗ prngReg c (ρ c) ∗ iprop(emp)) : sProp 𝕄) ⊢ R c := by
  iintro ⟨-, HO, -, Hp, -⟩
  isplitl [Hp]; · iexists _; iexact Hp
  iexists ∅; iexact HO

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Gen.frame_cond m emb₁ () 𝒱₀ L lv (fun _ _ => rfl) ρ (outs m) (pdats m) (fun _ => 0) (fun _ => iprop(emp))
    u₀ hu₀ (fun _ c => R c) ?hE0 (hE6 (F := F))
    (reg0 m) (fun c => .rfl) (fun c => held_of_eq (V4_eq m c).symm) (reg1 m) (fun c => held_of_eq (V5_eq m c)) (fun c => held_of_eq (V6_eq m c).symm)
    (reg2 m) (fun c => held_of_eq (V6_eq m c)) (fun c => held_of_eq (V7_eq m c).symm) (reg3 m) (fun c => held_of_eq (V8_eq m c)) (fun c => held_of_eq (V9_eq m c).symm)
    (reg4 m) (fun c => held_of_eq (V10_eq m c)) (fun c => held_of_eq (V11_eq m c).symm) (reg5 m) (fun c => held_of_eq (V12_eq m c)) (fun c => held_of_eq (V13_eq m c).symm)
  case hE0 =>
    have h : (_ : sProp 𝕄) ⊢ _ := bigSep_mono (s := Finset.univ) fun c _ => hR ρ c
    iintro ⟨H, -⟩
    imodintro
    iapply h
    iexact H

set_option backward.isDefEq.respectTransparency.types false in
theorem run_vals (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = x13 m c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m) (reg4 m) (reg5 m))
    (fun c Q => by
      rewrite [main_chain c, Seg.run_eq_chain]
      exact .rfl)
    (fun c => by simp only [Gen.segs, Seg.pipes_host, Seg.pipes_region, Seg.pipes_nil]; decide) (fun _ => 0) (fun _ _ => rfl)
    (fun _ => iprop(emp)) u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (x13 m c))
    (hch := fun c => ⟨.rfl, .rfl, .rfl, .rfl, held_of_eq (V4_eq m c).symm, held_of_eq (V5_eq m c),
      (held_of_eq (V6_eq m c).symm).trans (held_of_eq (V6_eq m c)), held_of_eq (V7_eq m c).symm, held_of_eq (V8_eq m c), held_of_eq (V9_eq m c).symm,
      held_of_eq (V10_eq m c), held_of_eq (V11_eq m c).symm, held_of_eq (V12_eq m c), sep_mono .rfl (hE6 c)⟩)
    (hinit := ?hinit) (QY := fun c s => ∀ b ∈ Pipeline.ucRefs τ sig, s.mem (((c : Thread nD τ)).1, b) = x13 m c b)
    (hfin := fun c s' => ?hfin) (hQ := fun _ h => h)
  case hinit =>
    have h : (_ : sProp 𝕄) ⊢ _ := bigSep_mono (s := Finset.univ) fun c _ =>
      BI.sep_mono (Entails.of_eq (Pipeline.unscopedBufs_held (Ix := Unit) (Name := ℕ) (U := UR sig nD τ) (Lvl := ℕ) c (Gen.V0 m c))) (hR ρ c)
    iintro ⟨H, -⟩
    imodintro
    iapply h
    iexact H
  case hfin =>
    unfold StableHlo.held
    iintro ⟨Hh, HSI⟩
    ihave Hr := (pointsTo_read_all (Pipeline.ucRefs τ sig) (fun b => ((c : Thread nD τ).1, b)) (x13 m c) s') $$ [Hh HSI]
    · isplitl [Hh] <;> iassumption
    icases Hr with ⟨%h, HSI⟩
    imodintro
    isplitr; · ipureintro; exact h
    iexact HSI

end Cert.KernelIdeal.Hand

end
-- ==== Proof.KI.Host45.lean ====
import proofs.«431255_j67791763800785_3_alg».proof.Proof.KI.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

theorem e3_of (c : Dev nD) (r : Ref sig .tc) (h0 : r ∉ hostOps0_W) (h1 : r ∉ hostOps0_1_W) (h2 : r ∉ hostOps0_2_W) :
    e3 m c r = m ((c.tc : Thread nD τ).loc r) :=
  (Gen.V3_of m c r h2).trans <| (Gen.V2_of m c r h1).trans <| (Gen.V1_of m c r h0).trans rfl
theorem x4_of (c : Dev nD) (r : Ref sig .tc) (h : r ≠ main_v16) : x4 m c r = e3 m c r :=
  Function.update_of_ne (StableHlo.devRef_ne_of_ne h : (Proc.devRef .tc r : DevRef τ sig) ≠ Proc.devRef .tc main_v16) _ _
theorem e5_of (c : Dev nD) (r : Ref sig .tc) (h : r ∉ hostOps1_W) : e5 m c r = x4 m c r :=
  StableHlo.after_of_writes_sub hostOps1 _ hostOps1_writes h
theorem x6_of (c : Dev nD) (r : Ref sig .tc) (h : r ≠ main_v29) : x6 m c r = e5 m c r :=
  Function.update_of_ne (StableHlo.devRef_ne_of_ne h : (Proc.devRef .tc r : DevRef τ sig) ≠ Proc.devRef .tc main_v29) _ _
theorem x7_of (c : Dev nD) (r : Ref sig .tc) (h : r ≠ main_v30) : x7 m c r = x6 m c r :=
  Function.update_of_ne (StableHlo.devRef_ne_of_ne h : (Proc.devRef .tc r : DevRef τ sig) ≠ Proc.devRef .tc main_v30) _ _
theorem e8_of (c : Dev nD) (r : Ref sig .tc) (h : r ∉ hostOps3_W) : e8 m c r = x7 m c r :=
  StableHlo.after_of_writes_sub hostOps3 _ hostOps3_writes h
theorem x9_of (c : Dev nD) (r : Ref sig .tc) (h : r ≠ main_v43) : x9 m c r = e8 m c r :=
  Function.update_of_ne (StableHlo.devRef_ne_of_ne h : (Proc.devRef .tc r : DevRef τ sig) ≠ Proc.devRef .tc main_v43) _ _
theorem e10_of (c : Dev nD) (r : Ref sig .tc) (h : r ∉ hostOps4_W) : e10 m c r = x9 m c r :=
  StableHlo.after_of_writes_sub hostOps4 _ hostOps4_writes h
theorem x11_of (c : Dev nD) (r : Ref sig .tc) (h : r ≠ main_v45) : x11 m c r = e10 m c r :=
  Function.update_of_ne (StableHlo.devRef_ne_of_ne h : (Proc.devRef .tc r : DevRef τ sig) ≠ Proc.devRef .tc main_v45) _ _
theorem e12_of (c : Dev nD) (r : Ref sig .tc) (h : r ∉ hostOps5_W) : e12 m c r = x11 m c r :=
  StableHlo.after_of_writes_sub hostOps5 _ hostOps5_writes h
theorem x13_of (c : Dev nD) (r : Ref sig .tc) (h : r ≠ main_v50) : x13 m c r = e12 m c r :=
  Function.update_of_ne (StableHlo.devRef_ne_of_ne h : (Proc.devRef .tc r : DevRef τ sig) ≠ Proc.devRef .tc main_v50) _ _

abbrev margs : List (Ref sig .tc) :=
  [main_arg0, main_arg1, main_arg2, main_arg3, main_arg4, main_arg5, main_arg6, main_arg7, main_arg8, main_arg9,
   main_arg10, main_arg11, main_arg12, main_arg13, main_arg14, main_arg15]

theorem margs_kept : ∀ r ∈ margs, r ∉ hostOps0_W ∧ r ∉ hostOps0_1_W ∧ r ∉ hostOps0_2_W ∧ r ≠ main_v16 ∧ r ∉ hostOps1_W
    ∧ r ≠ main_v29 ∧ r ≠ main_v30 ∧ r ∉ hostOps3_W ∧ r ≠ main_v43 ∧ r ∉ hostOps4_W ∧ r ≠ main_v45 ∧ r ∉ hostOps5_W
    ∧ r ≠ main_v50 := by decide

theorem e3_args (c : Dev nD) : ∀ r ∈ margs, e3 m c r = m ((c.tc : Thread nD τ).loc r) := fun r hr =>
  e3_of m c r (margs_kept r hr).1 (margs_kept r hr).2.1 (margs_kept r hr).2.2.1
theorem x4_args (c : Dev nD) : ∀ r ∈ margs, x4 m c r = m ((c.tc : Thread nD τ).loc r) := fun r hr =>
  (x4_of m c r (margs_kept r hr).2.2.2.1).trans (e3_args m c r hr)
theorem e5_args (c : Dev nD) : ∀ r ∈ margs, e5 m c r = m ((c.tc : Thread nD τ).loc r) := fun r hr =>
  (e5_of m c r (margs_kept r hr).2.2.2.2.1).trans (x4_args m c r hr)
theorem x6_args (c : Dev nD) : ∀ r ∈ margs, x6 m c r = m ((c.tc : Thread nD τ).loc r) := fun r hr =>
  (x6_of m c r (margs_kept r hr).2.2.2.2.2.1).trans (e5_args m c r hr)
theorem x7_args (c : Dev nD) : ∀ r ∈ margs, x7 m c r = m ((c.tc : Thread nD τ).loc r) := fun r hr =>
  (x7_of m c r (margs_kept r hr).2.2.2.2.2.2.1).trans (x6_args m c r hr)
theorem e8_args (c : Dev nD) : ∀ r ∈ margs, e8 m c r = m ((c.tc : Thread nD τ).loc r) := fun r hr =>
  (e8_of m c r (margs_kept r hr).2.2.2.2.2.2.2.1).trans (x7_args m c r hr)
theorem x9_args (c : Dev nD) : ∀ r ∈ margs, x9 m c r = m ((c.tc : Thread nD τ).loc r) := fun r hr =>
  (x9_of m c r (margs_kept r hr).2.2.2.2.2.2.2.2.1).trans (e8_args m c r hr)
theorem e10_args (c : Dev nD) : ∀ r ∈ margs, e10 m c r = m ((c.tc : Thread nD τ).loc r) := fun r hr =>
  (e10_of m c r (margs_kept r hr).2.2.2.2.2.2.2.2.2.1).trans (x9_args m c r hr)
theorem x11_args (c : Dev nD) : ∀ r ∈ margs, x11 m c r = m ((c.tc : Thread nD τ).loc r) := fun r hr =>
  (x11_of m c r (margs_kept r hr).2.2.2.2.2.2.2.2.2.2.1).trans (e10_args m c r hr)
theorem e12_args (c : Dev nD) : ∀ r ∈ margs, e12 m c r = m ((c.tc : Thread nD τ).loc r) := fun r hr =>
  (e12_of m c r (margs_kept r hr).2.2.2.2.2.2.2.2.2.2.2.1).trans (x11_args m c r hr)
theorem x13_args (c : Dev nD) : ∀ r ∈ margs, x13 m c r = m ((c.tc : Thread nD τ).loc r) := fun r hr =>
  (x13_of m c r (margs_kept r hr).2.2.2.2.2.2.2.2.2.2.2.2).trans (e12_args m c r hr)

theorem e10_v44 (c : Dev nD) (i : Fin 100000) :
    e10 m c main_v44 (ix2 i 0) = m ((c.tc : Thread nD τ).loc main_arg2) (ix1 i) := by
  show StableHlo.after hostOps4 (x9 m c) (Proc.devRef .tc main_v44) (ix2 i 0) = _
  after_results
  rw [x9_args m c main_arg2 (by decide)]
  exact shapeCast_apply _ _ (ix2 i 0) (ix1 i) (by rw [Shape.rowMajor_val_one, Shape.rowMajor_val_two]; show i.val = i.val * 1 + 0; omega)

theorem e12_v46 (c : Dev nD) (k : Fin 128) :
    e12 m c main_v46 (ix2 0 k) = m ((c.tc : Thread nD τ).loc main_arg9) (ix1 k) := by
  show StableHlo.after hostOps5 (x11 m c) (Proc.devRef .tc main_v46) (ix2 0 k) = _
  after_results
  rw [x11_args m c main_arg9 (by decide)]
  exact shapeCast_apply _ _ (ix2 0 k) (ix1 k) (by rw [Shape.rowMajor_val_one, Shape.rowMajor_val_two]; show k.val = 0 * 128 + k.val; omega)

theorem e12_v47 (c : Dev nD) (k : Fin 128) :
    e12 m c main_v47 (ix2 0 k) = m ((c.tc : Thread nD τ).loc main_arg11) (ix1 k) := by
  show StableHlo.after hostOps5 (x11 m c) (Proc.devRef .tc main_v47) (ix2 0 k) = _
  after_results
  rw [x11_args m c main_arg11 (by decide)]
  exact shapeCast_apply _ _ (ix2 0 k) (ix1 k) (by rw [Shape.rowMajor_val_one, Shape.rowMajor_val_two]; show k.val = 0 * 128 + k.val; omega)

theorem e12_v48 (c : Dev nD) (k : Fin 128) :
    e12 m c main_v48 (ix2 0 k) = m ((c.tc : Thread nD τ).loc main_arg13) (ix1 k) := by
  show StableHlo.after hostOps5 (x11 m c) (Proc.devRef .tc main_v48) (ix2 0 k) = _
  after_results
  rw [x11_args m c main_arg13 (by decide)]
  exact shapeCast_apply _ _ (ix2 0 k) (ix1 k) (by rw [Shape.rowMajor_val_one, Shape.rowMajor_val_two]; show k.val = 0 * 128 + k.val; omega)

theorem e12_v49 (c : Dev nD) :
    e12 m c main_v49 (ix2 0 0) = m ((c.tc : Thread nD τ).loc main_arg15) (ix1 0) := by
  show StableHlo.after hostOps5 (x11 m c) (Proc.devRef .tc main_v49) (ix2 0 0) = _
  after_results
  rw [x11_args m c main_arg15 (by decide)]
  exact shapeCast_apply _ _ (ix2 0 0) (ix1 0) (by rw [Shape.rowMajor_val_one, Shape.rowMajor_val_two]; rfl)

theorem x13_v50 (c : Dev nD) : x13 m c main_v50 = o13 m c := by
  show Function.update (e12 m c) main_v50 _ main_v50 = _
  rw [Function.update_self]

end Cert.KernelIdeal.Hand

end
-- ==== Proof.RefChunks.lean ====
import proofs.«431255_j67791763800785_3_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

-- The buffer each operation of the reference writes, in order: every buffer is written exactly once.
abbrev WR : List (Ref sig .tc) :=
  [ main_v0, main_v1, main_v2, main_v3, main_v4, main_v5, main_v6, main_v7, main_cst, main_v8, main_cst_0, main_v9,
    main_v10, main_v11, main_cst_1, main_v12, main_v13, main_v14, main_cst_2, main_call0_v0, main_call0_v1, main_v15, main_c, main_v16,
    main_v17, main_c_3, main_v18, main_v19, main_v20, main_v21, main_v22, main_c_4, main_v23, main_v24, main_c_5, main_v25,
    main_v26, main_v27, main_v28, main_v29, main_v30, main_c_6, main_v31, main_v32, main_c_7, main_v33, main_v34, main_v35,
    main_v36, main_v37, main_v38, main_v39, main_v40, main_cst_8, main_v41, main_v42, main_v43, main_v44, main_v45, main_v46,
    main_cst_9, main_v47, main_v48, main_cst_10, main_v49, main_v50, main_v51, main_v52, main_v53, main_v54, main_v55, main_cst_11,
    main_v56, main_cst_12, main_v57, main_v58, main_v59, main_cst_13, main_v60, main_v61, main_v62, main_cst_14, main_call2_v0, main_call2_v1,
    main_v63, main_c_15, main_v64, main_v65, main_c_16, main_v66, main_v67, main_v68, main_v69, main_v70, main_c_17, main_v71,
    main_v72, main_c_18, main_v73, main_v74, main_v75, main_v76, main_v77, main_v78, main_c_19, main_v79, main_v80, main_c_20,
    main_v81, main_v82, main_v83, main_v84, main_v85, main_v86, main_v87, main_v88, main_cst_21, main_v89, main_v90, main_v91,
    main_v92, main_v93, main_v94, main_cst_22, main_v95, main_v96, main_cst_23, main_v97, main_v98, main_v99, main_cst_24, main_v100,
    main_v101, main_v102, main_cst_25, main_v103, main_cst_26, main_v104, main_v105, main_v106, main_cst_27, main_v107, main_v108, main_v109,
    main_v110, main_v111, main_v112, main_v113, main_v114, main_v115, main_v116, main_v117, main_v118, main_v119, main_v120, main_cst_28,
    main_v121, main_v122, main_cst_29, main_v123, main_v124, main_v125, main_v126, main_v127, main_v128, main_v129, main_cst_30, main_v130,
    main_v131, main_cst_31, main_v132, main_v133, main_v134, main_v135, main_v136, main_v137, main_v138 ]

theorem ops_writes : (RunP.ops (F := F)).map HloOp.writes = WR.map fun r => ({Proc.devRef .tc r} : Finset (DevRef τ sig)) := rfl

-- A buffer outside the list of written buffers is written by no operation of the line.
theorem not_written {ops : List (HloOp τ sig (Elt F))} {W : List (Ref sig .tc)}
    (h : ops.map HloOp.writes = W.map fun r => ({Proc.devRef .tc r} : Finset (DevRef τ sig))) {r : Ref sig .tc} (hr : r ∉ W) :
    ∀ op ∈ ops, (Proc.devRef .tc r : DevRef τ sig) ∉ op.writes := fun op hop hb => by
  obtain ⟨w, hw, he⟩ := List.mem_map.mp (h ▸ List.mem_map_of_mem (f := HloOp.writes) hop)
  rw [← he, Finset.mem_singleton] at hb
  exact hr (Proc.devRef_injective _ hb ▸ hw)

variable (m : (ℓ : Loc nD τ sig) → Buf (Elt F) ℓ) (c : Dev nD)

def RV : Valuation τ sig (Elt F) := after RunP.ops (launchContents m c)

def L (k : ℕ) : Valuation τ sig (Elt F) := after (RunP.ops.take k) (launchContents m c)

-- A buffer no operation from position k on writes holds at the end what it holds after the first k operations.
theorem RV_at (k : ℕ) (r : Ref sig .tc) (h : r ∉ WR.drop k := by decide) : RV m c r = L m c k r := by
  unfold RV L
  conv_lhs => rw [← List.take_append_drop k RunP.ops, after_app]
  exact after_of_forall_not_mem _ _ (not_written (by rw [List.map_drop, ops_writes, List.map_drop]) h)

-- The contents after b operations are those after a, then operations a to b - 1.
theorem L_step (a b : ℕ) (h : a ≤ b := by decide) : L m c b = after ((RunP.ops.take b).drop a) (L m c a) := by
  unfold L
  conv_lhs => rw [← List.take_append_drop a (RunP.ops.take b), after_app, List.take_take, Nat.min_eq_left h]

end Cert.ReferenceIdeal.RefValue

end
-- ==== Proof.RefStages.lean ====
import proofs.«431255_j67791763800785_3_alg».proof.Proof.RefChunks

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev zN : FVec F S100000 .f32 := broadcastInDim S100000 ![] bcast_S_S100000 (constant (F := F) S_ .f32 0x00000000#32)
abbrev oM : FVec F S1700000 .f32 := broadcastInDim S1700000 ![] bcast_S_S1700000 (constant (F := F) S_ .f32 0x3F800000#32)
abbrev oN : FVec F S100000 .f32 := broadcastInDim S100000 ![] bcast_S_S100000 (constant (F := F) S_ .f32 0x3F800000#32)
abbrev zNW : FVec F S100000x128 .f32 := broadcastInDim S100000x128 ![] bcast_S_S100000x128 (constant (F := F) S_ .f32 0x00000000#32)
abbrev slopeNW : FVec F S100000x128 .f32 := broadcastInDim S100000x128 ![] bcast_S_S100000x128 (constant (F := F) S_ .f32 0x3C23D70A#32)
abbrev zGW : FVec F S256x128 .f32 := broadcastInDim S256x128 ![] bcast_S_S256x128 (constant (F := F) S_ .f32 0x00000000#32)
abbrev slopeGW : FVec F S256x128 .f32 := broadcastInDim S256x128 ![] bcast_S_S256x128 (constant (F := F) S_ .f32 0x3C23D70A#32)
abbrev zGG : FVec F S256x256 .f32 := broadcastInDim S256x256 ![] bcast_S_S256x256 (constant (F := F) S_ .f32 0x00000000#32)
abbrev slopeGG : FVec F S256x256 .f32 := broadcastInDim S256x256 ![] bcast_S_S256x256 (constant (F := F) S_ .f32 0x3C23D70A#32)
abbrev zG : FVec F S256 .f32 := broadcastInDim S256 ![] bcast_S_S256 (constant (F := F) S_ .f32 0x00000000#32)
abbrev oG : FVec F S256 .f32 := broadcastInDim S256 ![] bcast_S_S256 (constant (F := F) S_ .f32 0x3F800000#32)
abbrev i0M : IVec S1700000 32 := broadcastInDim S1700000 ![] bcast_S_S1700000 (constantI S_ 32 0#32)
abbrev iNM : IVec S1700000 32 := broadcastInDim S1700000 ![] bcast_S_S1700000 (constantI S_ 32 100000#32)

abbrev colM {α : Type} (x : S1700000.Idx → α) : S1700000x1.Idx → α := broadcastInDim S1700000x1 ![0] bcast_S1700000_S1700000x1_0 x

abbrev colN {α : Type} (x : S100000.Idx → α) : S100000x1.Idx → α := broadcastInDim S100000x1 ![0] bcast_S100000_S100000x1_0 x

def withLoops (x : IVec S1600000 32) : IVec S1700000 32 :=
  concatenate S1700000 0 [⟨S1600000, x⟩, ⟨S100000, iotaInDim S100000 32 0⟩] concatenates_S1600000_S100000_S1700000_d0

def wrapIdx (x : IVec S1700000 32) : IVec S1700000 32 := select (cmpi .slt x i0M) (addi x iNM) x

def degOf (dst2 : IVec S1700000x1 32) : FVec F S100000 .f32 :=
  Host.scatterAdd scatter_S100000_S1700000x1_S1700000_n_0_0_1 zN dst2 oM

def dinvOf (deg : FVec F S100000 .f32) : FVec F S100000 .f32 := select (cmpf .ogt deg zN) (Host.rsqrt deg) zN

def edgeW (dv : FVec F S100000 .f32) (src2 tgt2 : IVec S1700000x1 32) : FVec F S1700000 .f32 :=
  mulf (Host.gather gather_S100000_S1700000x1_S1700000_n_0_n_n_0_1_1 dv src2)
    (Host.gather gather_S100000_S1700000x1_S1700000_n_0_n_n_0_1_1 dv tgt2)

def msgOf (Hh : FVec F S100000x128 .f32) (src2 : IVec S1700000x1 32) (ew : FVec F S1700000 .f32) : FVec F S1700000x128 .f32 :=
  mulf (Host.gather gather_S100000x128_S1700000x1_S1700000x128_1_0_n_n_0_1_1128 Hh src2)
    (broadcastInDim S1700000x128 ![0, 1] bcast_S1700000x1_S1700000x128_0_1 (colM ew))

def aggOf (dst2 : IVec S1700000x1 32) (msg : FVec F S1700000x128 .f32) : FVec F S100000x128 .f32 :=
  Host.scatterAdd scatter_S100000x128_S1700000x1_S1700000x128_1_0_0_1 zNW dst2 msg

def biasNW (bias : FVec F S128 .f32) : FVec F S100000x128 .f32 :=
  broadcastInDim S100000x128 ![0, 1] bcast_S1x128_S100000x128_0_1 (broadcastInDim S1x128 ![1] bcast_S128_S1x128_1 bias)

def leakyNW (y : FVec F S100000x128 .f32) : FVec F S100000x128 .f32 := select (cmpf .oge y zNW) y (mulf slopeNW y)

def layerTerm (Hh : FVec F S100000x128 .f32) (dv : FVec F S100000 .f32) (src2 tgt2 dst2 : IVec S1700000x1 32)
    (bias : FVec F S128 .f32) : FVec F S100000x128 .f32 :=
  leakyNW (addf (aggOf dst2 (msgOf Hh src2 (edgeW dv src2 tgt2))) (biasNW bias))

def poolTerm (h2 : FVec F S100000x128 .f32) (ids : IVec S100000 32) : FVec F S256x128 .f32 :=
  Host.divf (Host.scatterAdd scatter_S256x128_S100000x1_S100000x128_1_0_0_1 zGW (colN ids) h2)
    (broadcastInDim S256x128 ![0, 1] bcast_S256x1_S256x128_0_1 (broadcastInDim S256x1 ![0] bcast_S256_S256x1_0
      (maximumf (Host.scatterAdd scatter_S256_S100000x1_S100000_n_0_0_1 zG (colN ids) oN) oG)))

def biasGW (bias : FVec F S128 .f32) : FVec F S256x128 .f32 :=
  broadcastInDim S256x128 ![0, 1] bcast_S1x128_S256x128_0_1 (broadcastInDim S1x128 ![1] bcast_S128_S1x128_1 bias)

def leakyGW (y : FVec F S256x128 .f32) : FVec F S256x128 .f32 := select (cmpf .oge y zGW) y (mulf slopeGW y)
def leakyGG (y : FVec F S256x256 .f32) : FVec F S256x256 .f32 := select (cmpf .oge y zGG) y (mulf slopeGG y)

def fusedTerm (pooled : FVec F S256x128 .f32) (a3 : FVec F S256x32 .f32) (a8 : FVec F S128x128 .f32) (a9 : FVec F S128 .f32)
    (a10 : FVec F S32x128 .f32) (a11 : FVec F S128 .f32) : FVec F S256x256 .f32 :=
  concatenate S256x256 1
    [⟨S256x128, addf (Host.dotGeneral dot_S256x128_S128x128_S256x128_1_0_0_1_n_n none pooled a8) (biasGW a9)⟩,
     ⟨S256x128, addf (Host.dotGeneral dot_S256x32_S32x128_S256x128_1_0_0_1_n_n none a3 a10) (biasGW a11)⟩]
    concatenates_S256x128_S256x128_S256x256_d1

def mlpTerm (pooled : FVec F S256x128 .f32) (a3 : FVec F S256x32 .f32) (a8 : FVec F S128x128 .f32) (a9 : FVec F S128 .f32)
    (a10 : FVec F S32x128 .f32) (a11 : FVec F S128 .f32) (a12 : FVec F S256x128 .f32) (a13 : FVec F S128 .f32)
    (a14 : FVec F S128x1 .f32) (a15 : FVec F S1 .f32) : FVec F S256x1 .f32 :=
  addf (Host.dotGeneral dot_S256x128_S128x1_S256x1_1_0_0_1_n_n none
      (leakyGW (addf (Host.dotGeneral dot_S256x256_S256x128_S256x128_1_0_0_1_n_n none
        (leakyGG (fusedTerm pooled a3 a8 a9 a10 a11)) a12) (biasGW a13))) a14)
    (broadcastInDim S256x1 ![0, 1] bcast_S1x1_S256x1_0_1 (broadcastInDim S1x1 ![1] bcast_S1_S1x1_1 a15))

variable (m : (ℓ : Loc nD τ sig) → Buf (Elt F) ℓ) (c : Dev nD)

theorem RV_arg0 : RV m c main_arg0 = m ((c.tc : Thread nD τ).loc main_arg0) := by
  rw [RV_at m c 0 main_arg0]; rfl
theorem RV_arg1 : RV m c main_arg1 = m ((c.tc : Thread nD τ).loc main_arg1) := by
  rw [RV_at m c 0 main_arg1]; rfl
theorem RV_arg2 : RV m c main_arg2 = m ((c.tc : Thread nD τ).loc main_arg2) := by
  rw [RV_at m c 0 main_arg2]; rfl
theorem RV_arg3 : RV m c main_arg3 = m ((c.tc : Thread nD τ).loc main_arg3) := by
  rw [RV_at m c 0 main_arg3]; rfl
theorem RV_arg4 : RV m c main_arg4 = m ((c.tc : Thread nD τ).loc main_arg4) := by
  rw [RV_at m c 0 main_arg4]; rfl
theorem RV_arg5 : RV m c main_arg5 = m ((c.tc : Thread nD τ).loc main_arg5) := by
  rw [RV_at m c 0 main_arg5]; rfl
theorem RV_arg6 : RV m c main_arg6 = m ((c.tc : Thread nD τ).loc main_arg6) := by
  rw [RV_at m c 0 main_arg6]; rfl
theorem RV_arg7 : RV m c main_arg7 = m ((c.tc : Thread nD τ).loc main_arg7) := by
  rw [RV_at m c 0 main_arg7]; rfl
theorem RV_arg8 : RV m c main_arg8 = m ((c.tc : Thread nD τ).loc main_arg8) := by
  rw [RV_at m c 0 main_arg8]; rfl
theorem RV_arg9 : RV m c main_arg9 = m ((c.tc : Thread nD τ).loc main_arg9) := by
  rw [RV_at m c 0 main_arg9]; rfl
theorem RV_arg10 : RV m c main_arg10 = m ((c.tc : Thread nD τ).loc main_arg10) := by
  rw [RV_at m c 0 main_arg10]; rfl
theorem RV_arg11 : RV m c main_arg11 = m ((c.tc : Thread nD τ).loc main_arg11) := by
  rw [RV_at m c 0 main_arg11]; rfl
theorem RV_arg12 : RV m c main_arg12 = m ((c.tc : Thread nD τ).loc main_arg12) := by
  rw [RV_at m c 0 main_arg12]; rfl
theorem RV_arg13 : RV m c main_arg13 = m ((c.tc : Thread nD τ).loc main_arg13) := by
  rw [RV_at m c 0 main_arg13]; rfl
theorem RV_arg14 : RV m c main_arg14 = m ((c.tc : Thread nD τ).loc main_arg14) := by
  rw [RV_at m c 0 main_arg14]; rfl
theorem RV_arg15 : RV m c main_arg15 = m ((c.tc : Thread nD τ).loc main_arg15) := by
  rw [RV_at m c 0 main_arg15]; rfl

theorem E_v4 : RV m c main_v4 = Host.dotGeneral dot_S100000x64_S64x128_S100000x128_1_0_0_1_n_n none (RV m c main_arg0) (RV m c main_arg4) := by
  rw [RV_at m c 5 main_v4, RV_at m c 4 main_arg0, RV_at m c 4 main_arg4, L_step m c 4 5]
  simp only [RunP.ops, List.take, List.drop]
  after_results <;> rfl
theorem E_v6 : RV m c main_v6 = withLoops (RV m c main_v1) := by
  rw [RV_at m c 8 main_v6, RV_at m c 5 main_v1, L_step m c 5 8]
  simp only [RunP.ops, List.take, List.drop]
  after_results <;> rfl
theorem E_v7 : RV m c main_v7 = withLoops (RV m c main_v3) := by
  rw [RV_at m c 8 main_v7, RV_at m c 5 main_v3, L_step m c 5 8]
  simp only [RunP.ops, List.take, List.drop]
  after_results <;> rfl
theorem E_v11 : RV m c main_v11 = degOf (colM (RV m c main_v7)) := by
  rw [RV_at m c 14 main_v11, RV_at m c 8 main_v7, L_step m c 8 14]
  simp only [RunP.ops, List.take, List.drop]
  after_results <;> rfl
theorem E_v15 : RV m c main_v15 = dinvOf (RV m c main_v11) := by
  rw [RV_at m c 22 main_v15, RV_at m c 14 main_v11, L_step m c 14 22]
  simp only [RunP.ops, List.take, List.drop]
  after_results <;> rfl
theorem E_v20 : RV m c main_v20 = wrapIdx (RV m c main_v6) := by
  rw [RV_at m c 29 main_v20, RV_at m c 22 main_v6, L_step m c 22 29]
  simp only [RunP.ops, List.take, List.drop]
  after_results <;> rfl
theorem E_v21 : RV m c main_v21 = colM (RV m c main_v20) := by
  rw [RV_at m c 31 main_v21, RV_at m c 29 main_v20, L_step m c 29 31]
  simp only [RunP.ops, List.take, List.drop]
  after_results <;> rfl
theorem E_v22 : RV m c main_v22 = Host.gather gather_S100000_S1700000x1_S1700000_n_0_n_n_0_1_1 (RV m c main_v15) (colM (RV m c main_v20)) := by
  rw [RV_at m c 31 main_v22, RV_at m c 29 main_v15, RV_at m c 29 main_v20, L_step m c 29 31]
  simp only [RunP.ops, List.take, List.drop]
  after_results <;> rfl
theorem E_v27 : RV m c main_v27 = wrapIdx (RV m c main_v7) := by
  rw [RV_at m c 38 main_v27, RV_at m c 31 main_v7, L_step m c 31 38]
  simp only [RunP.ops, List.take, List.drop]
  after_results <;> rfl
theorem E_v28 : RV m c main_v28 = colM (RV m c main_v27) := by
  rw [RV_at m c 41 main_v28, RV_at m c 38 main_v27, L_step m c 38 41]
  simp only [RunP.ops, List.take, List.drop]
  after_results <;> rfl
theorem E_v30 : RV m c main_v30 = mulf (RV m c main_v22) (Host.gather gather_S100000_S1700000x1_S1700000_n_0_n_n_0_1_1 (RV m c main_v15) (colM (RV m c main_v27))) := by
  rw [RV_at m c 41 main_v30, RV_at m c 38 main_v22, RV_at m c 38 main_v15, RV_at m c 38 main_v27, L_step m c 38 41]
  simp only [RunP.ops, List.take, List.drop]
  after_results <;> rfl
theorem E_v35 : RV m c main_v35 = wrapIdx (RV m c main_v6) := by
  rw [RV_at m c 48 main_v35, RV_at m c 41 main_v6, L_step m c 41 48]
  simp only [RunP.ops, List.take, List.drop]
  after_results <;> rfl
theorem E_v36 : RV m c main_v36 = colM (RV m c main_v35) := by
  rw [RV_at m c 53 main_v36, RV_at m c 48 main_v35, L_step m c 48 53]
  simp only [RunP.ops, List.take, List.drop]
  after_results <;> rfl
theorem E_v40 : RV m c main_v40 = msgOf (RV m c main_v4) (colM (RV m c main_v35)) (RV m c main_v30) := by
  rw [RV_at m c 53 main_v40, RV_at m c 48 main_v4, RV_at m c 48 main_v35, RV_at m c 48 main_v30, L_step m c 48 53]
  simp only [RunP.ops, List.take, List.drop]
  after_results <;> rfl
theorem E_v42 : RV m c main_v42 = colM (RV m c main_v7) := by
  rw [RV_at m c 57 main_v42, RV_at m c 53 main_v7, L_step m c 53 57]
  simp only [RunP.ops, List.take, List.drop]
  after_results <;> rfl
theorem E_v43 : RV m c main_v43 = aggOf (colM (RV m c main_v7)) (RV m c main_v40) := by
  rw [RV_at m c 57 main_v43, RV_at m c 53 main_v7, RV_at m c 53 main_v40, L_step m c 53 57]
  simp only [RunP.ops, List.take, List.drop]
  after_results <;> rfl
theorem E_v46 : RV m c main_v46 = addf (RV m c main_v43) (biasNW (RV m c main_arg5)) := by
  rw [RV_at m c 60 main_v46, RV_at m c 57 main_v43, RV_at m c 57 main_arg5, L_step m c 57 60]
  simp only [RunP.ops, List.take, List.drop]
  after_results <;> rfl
theorem E_v51 : RV m c main_v51 = leakyNW (RV m c main_v46) := by
  rw [RV_at m c 67 main_v51, RV_at m c 60 main_v46, L_step m c 60 67]
  simp only [RunP.ops, List.take, List.drop]
  after_results <;> rfl

theorem E_v52 : RV m c main_v52 = Host.dotGeneral dot_S100000x128_S128x128_S100000x128_1_0_0_1_n_n none (RV m c main_v51) (RV m c main_arg6) := by
  rw [RV_at m c 68 main_v52, RV_at m c 67 main_v51, RV_at m c 67 main_arg6, L_step m c 67 68]
  simp only [RunP.ops, List.take, List.drop]
  after_results <;> rfl
theorem E_v54 : RV m c main_v54 = withLoops (RV m c main_v1) := by
  rw [RV_at m c 71 main_v54, RV_at m c 68 main_v1, L_step m c 68 71]
  simp only [RunP.ops, List.take, List.drop]
  after_results <;> rfl
theorem E_v55 : RV m c main_v55 = withLoops (RV m c main_v3) := by
  rw [RV_at m c 71 main_v55, RV_at m c 68 main_v3, L_step m c 68 71]
  simp only [RunP.ops, List.take, List.drop]
  after_results <;> rfl
theorem E_v59 : RV m c main_v59 = degOf (colM (RV m c main_v55)) := by
  rw [RV_at m c 77 main_v59, RV_at m c 71 main_v55, L_step m c 71 77]
  simp only [RunP.ops, List.take, List.drop]
  after_results <;> rfl
theorem E_v63 : RV m c main_v63 = dinvOf (RV m c main_v59) := by
  rw [RV_at m c 85 main_v63, RV_at m c 77 main_v59, L_step m c 77 85]
  simp only [RunP.ops, List.take, List.drop]
  after_results <;> rfl
theorem E_v68 : RV m c main_v68 = wrapIdx (RV m c main_v54) := by
  rw [RV_at m c 92 main_v68, RV_at m c 85 main_v54, L_step m c 85 92]
  simp only [RunP.ops, List.take, List.drop]
  after_results <;> rfl
theorem E_v69 : RV m c main_v69 = colM (RV m c main_v68) := by
  rw [RV_at m c 94 main_v69, RV_at m c 92 main_v68, L_step m c 92 94]
  simp only [RunP.ops, List.take, List.drop]
  after_results <;> rfl
theorem E_v70 : RV m c main_v70 = Host.gather gather_S100000_S1700000x1_S1700000_n_0_n_n_0_1_1 (RV m c main_v63) (colM (RV m c main_v68)) := by
  rw [RV_at m c 94 main_v70, RV_at m c 92 main_v63, RV_at m c 92 main_v68, L_step m c 92 94]
  simp only [RunP.ops, List.take, List.drop]
  after_results <;> rfl
theorem E_v75 : RV m c main_v75 = wrapIdx (RV m c main_v55) := by
  rw [RV_at m c 101 main_v75, RV_at m c 94 main_v55, L_step m c 94 101]
  simp only [RunP.ops, List.take, List.drop]
  after_results <;> rfl
theorem E_v76 : RV m c main_v76 = colM (RV m c main_v75) := by
  rw [RV_at m c 104 main_v76, RV_at m c 101 main_v75, L_step m c 101 104]
  simp only [RunP.ops, List.take, List.drop]
  after_results <;> rfl
theorem E_v78 : RV m c main_v78 = mulf (RV m c main_v70) (Host.gather gather_S100000_S1700000x1_S1700000_n_0_n_n_0_1_1 (RV m c main_v63) (colM (RV m c main_v75))) := by
  rw [RV_at m c 104 main_v78, RV_at m c 101 main_v70, RV_at m c 101 main_v63, RV_at m c 101 main_v75, L_step m c 101 104]
  simp only [RunP.ops, List.take, List.drop]
  after_results <;> rfl
theorem E_v83 : RV m c main_v83 = wrapIdx (RV m c main_v54) := by
  rw [RV_at m c 111 main_v83, RV_at m c 104 main_v54, L_step m c 104 111]
  simp only [RunP.ops, List.take, List.drop]
  after_results <;> rfl
theorem E_v84 : RV m c main_v84 = colM (RV m c main_v83) := by
  rw [RV_at m c 116 main_v84, RV_at m c 111 main_v83, L_step m c 111 116]
  simp only [RunP.ops, List.take, List.drop]
  after_results <;> rfl
theorem E_v88 : RV m c main_v88 = msgOf (RV m c main_v52) (colM (RV m c main_v83)) (RV m c main_v78) := by
  rw [RV_at m c 116 main_v88, RV_at m c 111 main_v52, RV_at m c 111 main_v83, RV_at m c 111 main_v78, L_step m c 111 116]
  simp only [RunP.ops, List.take, List.drop]
  after_results <;> rfl
theorem E_v90 : RV m c main_v90 = colM (RV m c main_v55) := by
  rw [RV_at m c 120 main_v90, RV_at m c 116 main_v55, L_step m c 116 120]
  simp only [RunP.ops, List.take, List.drop]
  after_results <;> rfl
theorem E_v91 : RV m c main_v91 = aggOf (colM (RV m c main_v55)) (RV m c main_v88) := by
  rw [RV_at m c 120 main_v91, RV_at m c 116 main_v55, RV_at m c 116 main_v88, L_step m c 116 120]
  simp only [RunP.ops, List.take, List.drop]
  after_results <;> rfl
theorem E_v94 : RV m c main_v94 = addf (RV m c main_v91) (biasNW (RV m c main_arg7)) := by
  rw [RV_at m c 123 main_v94, RV_at m c 120 main_v91, RV_at m c 120 main_arg7, L_step m c 120 123]
  simp only [RunP.ops, List.take, List.drop]
  after_results <;> rfl
theorem E_v99 : RV m c main_v99 = leakyNW (RV m c main_v94) := by
  rw [RV_at m c 130 main_v99, RV_at m c 123 main_v94, L_step m c 123 130]
  simp only [RunP.ops, List.take, List.drop]
  after_results <;> rfl

theorem E_v111 : RV m c main_v111 = Host.divf (RV m c main_v102) (broadcastInDim S256x128 ![0, 1] bcast_S256x1_S256x128_0_1 (broadcastInDim S256x1 ![0] bcast_S256_S256x1_0 (RV m c main_v108))) := by
  rw [RV_at m c 146 main_v111, RV_at m c 143 main_v102, RV_at m c 143 main_v108, L_step m c 143 146]
  simp only [RunP.ops, List.take, List.drop]
  after_results <;> rfl
theorem E_v108 : RV m c main_v108 = maximumf (RV m c main_v106) oG := by
  rw [RV_at m c 143 main_v108, RV_at m c 140 main_v106, L_step m c 140 143]
  simp only [RunP.ops, List.take, List.drop]
  after_results <;> rfl
theorem E_v106 : RV m c main_v106 = Host.scatterAdd scatter_S256_S100000x1_S100000_n_0_0_1 zG (colN (RV m c main_arg2)) oN := by
  rw [RV_at m c 140 main_v106, RV_at m c 134 main_arg2, L_step m c 134 140]
  simp only [RunP.ops, List.take, List.drop]
  after_results <;> rfl
theorem E_v102 : RV m c main_v102 = Host.scatterAdd scatter_S256x128_S100000x1_S100000x128_1_0_0_1 zGW (colN (RV m c main_arg2)) (RV m c main_v99) := by
  rw [RV_at m c 134 main_v102, RV_at m c 130 main_arg2, RV_at m c 130 main_v99, L_step m c 130 134]
  simp only [RunP.ops, List.take, List.drop]
  after_results <;> rfl
theorem E_v115 : RV m c main_v115 = addf (Host.dotGeneral dot_S256x128_S128x128_S256x128_1_0_0_1_n_n none (RV m c main_v111) (RV m c main_arg8)) (biasGW (RV m c main_arg9)) := by
  rw [RV_at m c 150 main_v115, RV_at m c 146 main_v111, RV_at m c 146 main_arg8, RV_at m c 146 main_arg9, L_step m c 146 150]
  simp only [RunP.ops, List.take, List.drop]
  after_results <;> rfl
theorem E_v119 : RV m c main_v119 = addf (Host.dotGeneral dot_S256x32_S32x128_S256x128_1_0_0_1_n_n none (RV m c main_arg3) (RV m c main_arg10)) (biasGW (RV m c main_arg11)) := by
  rw [RV_at m c 154 main_v119, RV_at m c 150 main_arg3, RV_at m c 150 main_arg10, RV_at m c 150 main_arg11, L_step m c 150 154]
  simp only [RunP.ops, List.take, List.drop]
  after_results <;> rfl
theorem E_v120 : RV m c main_v120 = concatenate S256x256 1 [⟨S256x128, (RV m c main_v115)⟩, ⟨S256x128, (RV m c main_v119)⟩] concatenates_S256x128_S256x128_S256x256_d1 := by
  rw [RV_at m c 155 main_v120, RV_at m c 154 main_v115, RV_at m c 154 main_v119, L_step m c 154 155]
  simp only [RunP.ops, List.take, List.drop]
  after_results <;> rfl
theorem E_v125 : RV m c main_v125 = leakyGG (RV m c main_v120) := by
  rw [RV_at m c 162 main_v125, RV_at m c 155 main_v120, L_step m c 155 162]
  simp only [RunP.ops, List.take, List.drop]
  after_results <;> rfl
theorem E_v129 : RV m c main_v129 = addf (Host.dotGeneral dot_S256x256_S256x128_S256x128_1_0_0_1_n_n none (RV m c main_v125) (RV m c main_arg12)) (biasGW (RV m c main_arg13)) := by
  rw [RV_at m c 166 main_v129, RV_at m c 162 main_v125, RV_at m c 162 main_arg12, RV_at m c 162 main_arg13, L_step m c 162 166]
  simp only [RunP.ops, List.take, List.drop]
  after_results <;> rfl
theorem E_v134 : RV m c main_v134 = leakyGW (RV m c main_v129) := by
  rw [RV_at m c 173 main_v134, RV_at m c 166 main_v129, L_step m c 166 173]
  simp only [RunP.ops, List.take, List.drop]
  after_results <;> rfl
theorem E_v138 : RV m c main_v138 = addf (Host.dotGeneral dot_S256x128_S128x1_S256x1_1_0_0_1_n_n none (RV m c main_v134) (RV m c main_arg14)) (broadcastInDim S256x1 ![0, 1] bcast_S1x1_S256x1_0_1 (broadcastInDim S1x1 ![1] bcast_S1_S1x1_1 (RV m c main_arg15))) := by
  rw [RV_at m c 177 main_v138, RV_at m c 173 main_v134, RV_at m c 173 main_arg14, RV_at m c 173 main_arg15, L_step m c 173 177]
  simp only [RunP.ops, List.take, List.drop]
  after_results <;> rfl

theorem I_v54 : RV m c main_v54 = RV m c main_v6 := by rw [E_v54, E_v6]
theorem I_v55 : RV m c main_v55 = RV m c main_v7 := by rw [E_v55, E_v7]
theorem I_v59 : RV m c main_v59 = RV m c main_v11 := by rw [E_v59, E_v11, I_v55]
theorem I_v63 : RV m c main_v63 = RV m c main_v15 := by rw [E_v63, E_v15, I_v59]
theorem I_v35 : RV m c main_v35 = RV m c main_v20 := by rw [E_v35, E_v20]
theorem I_v36 : RV m c main_v36 = RV m c main_v21 := by rw [E_v36, E_v21, I_v35]
theorem I_v68 : RV m c main_v68 = RV m c main_v20 := by rw [E_v68, E_v20, I_v54]
theorem I_v69 : RV m c main_v69 = RV m c main_v21 := by rw [E_v69, E_v21, I_v68]
theorem I_v75 : RV m c main_v75 = RV m c main_v27 := by rw [E_v75, E_v27, I_v55]
theorem I_v76 : RV m c main_v76 = RV m c main_v28 := by rw [E_v76, E_v28, I_v75]
theorem I_v83 : RV m c main_v83 = RV m c main_v20 := by rw [E_v83, E_v20, I_v54]
theorem I_v84 : RV m c main_v84 = RV m c main_v36 := by rw [E_v84, E_v36, I_v83, I_v35]
theorem I_v90 : RV m c main_v90 = RV m c main_v42 := by rw [E_v90, E_v42, I_v55]
theorem I_v69' : RV m c main_v69 = RV m c main_v84 := by rw [I_v69, I_v84, I_v36]
theorem C_v30 : RV m c main_v30 = edgeW (RV m c main_v15) (RV m c main_v36) (RV m c main_v28) := by
  rw [E_v30, E_v22, ← E_v21, ← E_v28, I_v36]; rfl
theorem C_v40 : RV m c main_v40 = msgOf (RV m c main_v4) (RV m c main_v36) (RV m c main_v30) := by
  rw [E_v40, ← E_v36]
theorem C_v43 : RV m c main_v43 = aggOf (RV m c main_v42) (RV m c main_v40) := by
  rw [E_v43, ← E_v42]

theorem C_v51 : RV m c main_v51 = layerTerm (RV m c main_v4) (RV m c main_v15) (RV m c main_v36) (RV m c main_v28)
    (RV m c main_v42) (RV m c main_arg5) := by
  rw [E_v51, E_v46, C_v43, C_v40, C_v30]; rfl

theorem C_v78 : RV m c main_v78 = edgeW (RV m c main_v63) (RV m c main_v84) (RV m c main_v76) := by
  rw [E_v78, E_v70, ← E_v69, ← E_v76, I_v69']; rfl
theorem C_v88 : RV m c main_v88 = msgOf (RV m c main_v52) (RV m c main_v84) (RV m c main_v78) := by
  rw [E_v88, ← E_v84]
theorem C_v91 : RV m c main_v91 = aggOf (RV m c main_v90) (RV m c main_v88) := by
  rw [E_v91, ← E_v90]

theorem C_v99 : RV m c main_v99 = layerTerm (RV m c main_v52) (RV m c main_v63) (RV m c main_v84) (RV m c main_v76)
    (RV m c main_v90) (RV m c main_arg7) := by
  rw [E_v99, E_v94, C_v91, C_v88, C_v78]; rfl

theorem C_v111 : RV m c main_v111 = poolTerm (RV m c main_v99) (RV m c main_arg2) := by
  rw [E_v111, E_v108, E_v106, E_v102]; rfl

theorem C_v138 : RV m c main_v138 = mlpTerm (RV m c main_v111) (RV m c main_arg3) (RV m c main_arg8) (RV m c main_arg9)
    (RV m c main_arg10) (RV m c main_arg11) (RV m c main_arg12) (RV m c main_arg13) (RV m c main_arg14) (RV m c main_arg15) := by
  rw [E_v138, E_v134, E_v129, E_v125, E_v120, E_v115, E_v119]; rfl

end Cert.ReferenceIdeal.RefValue

end
-- ==== Proof.Spec.lean ====
import Idealize.ShloMosaic.PureOps.Ideal.Laws
import Mathlib.Data.EReal.Operations
import Mathlib.Algebra.BigOperators.Fin

noncomputable section

namespace Cert.Spec

open Idealize.ShloMosaic

def gidx (N : Nat) (b : BitVec 32) : Nat := min b.toInt.toNat (N - 1)

theorem gidx_lt {N : Nat} (hN : 0 < N) (b : BitVec 32) : gidx N b < N := by
  unfold gidx; omega

def leaky (y : EReal) : EReal := if 0 ≤ y then y else Ideal.ofBits .f32 0x3C23D70A#32 * y

def mm {a k b : Nat} (A : Fin a → Fin k → EReal) (B : Fin k → Fin b → EReal) (i : Fin a) (j : Fin b) : EReal :=
  ∑ t : Fin k, A i t * B t j

section Layer

variable {N M W : Nat} (hN : 0 < N)

def aggK (HS : Fin N → Fin W → EReal) (src dst : Fin M → BitVec 32) (v : Fin N) (q : Fin W) : EReal :=
  0 + ∑ e : Fin M, if (dst e).toInt = (v.val : Int) then HS ⟨gidx N (src e), gidx_lt hN _⟩ q else 0

def aggR (H : Fin N → Fin W → EReal) (d : Fin N → EReal) (src tgt dst : Fin M → BitVec 32) (v : Fin N) (q : Fin W) : EReal :=
  0 + ∑ e : Fin M, if (dst e).toInt = (v.val : Int)
    then H ⟨gidx N (src e), gidx_lt hN _⟩ q * (d ⟨gidx N (src e), gidx_lt hN _⟩ * d ⟨gidx N (tgt e), gidx_lt hN _⟩) else 0

def layerK (H : Fin N → Fin W → EReal) (d : Fin N → EReal) (src dst : Fin M → BitVec 32) (b : Fin W → EReal)
    (v : Fin N) (q : Fin W) : EReal :=
  leaky (aggK hN (fun i q => H i q * d i) src dst v q * d v + b q)

def layerR (H : Fin N → Fin W → EReal) (d : Fin N → EReal) (src tgt dst : Fin M → BitVec 32) (b : Fin W → EReal)
    (v : Fin N) (q : Fin W) : EReal :=
  leaky (aggR hN H d src tgt dst v q + b q)

end Layer

section Pool

variable {N G W : Nat}

def poolSum (h : Fin N → Fin W → EReal) (ids : Fin N → BitVec 32) (g : Fin G) (q : Fin W) : EReal :=
  0 + ∑ i : Fin N, if (ids i).toInt = (g.val : Int) then h i q else 0

def poolCnt (ids : Fin N → BitVec 32) (g : Fin G) : EReal :=
  0 + ∑ i : Fin N, if (ids i).toInt = (g.val : Int) then (1 : EReal) else 0

end Pool

section Mlp

variable {G P Q H2 : Nat}

def fused (pooled : Fin G → Fin H2 → EReal) (gf : Fin G → Fin Q → EReal)
    (Wg : Fin H2 → Fin H2 → EReal) (bg : Fin H2 → EReal) (Wf : Fin Q → Fin H2 → EReal) (bf : Fin H2 → EReal)
    (g : Fin G) (j : Fin (H2 + H2)) : EReal :=
  if h : j.val < H2 then mm pooled Wg g ⟨j.val, h⟩ + bg ⟨j.val, h⟩
  else mm gf Wf g ⟨j.val - H2, by omega⟩ + bf ⟨j.val - H2, by omega⟩

def mlp (pooled : Fin G → Fin H2 → EReal) (gf : Fin G → Fin Q → EReal)
    (Wg : Fin H2 → Fin H2 → EReal) (bg : Fin H2 → EReal) (Wf : Fin Q → Fin H2 → EReal) (bf : Fin H2 → EReal)
    (Wm1 : Fin (H2 + H2) → Fin H2 → EReal) (bm1 : Fin H2 → EReal) (Wm2 : Fin H2 → Fin 1 → EReal) (bm2 : EReal)
    (g : Fin G) : EReal :=
  mm (fun g k => leaky (mm (fun g j => leaky (fused pooled gf Wg bg Wf bf g j)) Wm1 g k + bm1 k)) Wm2 g 0 + bm2

end Mlp

def pooledMean {N G W : Nat} (h : Fin N → Fin W → EReal) (ids : Fin N → BitVec 32) (g : Fin G) (q : Fin W) : EReal :=
  Ideal.div (poolSum h ids g q) (max (poolCnt (G := G) ids g) 1)

end Cert.Spec

end
-- ==== Proof.LibRowGatherScatter.lean ====
import Idealize.ShloMosaic.Lib.ValueIdx
import Idealize.ShloMosaic.PureOps.Ideal.Laws

noncomputable section

namespace Cert.Lib.RowPass

open Idealize.ShloMosaic Idealize.ShloMosaic.ValueIdx

section Generic

abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

theorem fin2_cases (a : Fin 2) : a = 0 ∨ a = 1 := by
  revert a; decide

theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.LibVecGatherScatter.lean ====
import Idealize.ShloMosaic.Lib.ValueIdx
import Idealize.ShloMosaic.PureOps.Ideal.Laws

noncomputable section

namespace Cert.Lib.VecPass

open Idealize.ShloMosaic Idealize.ShloMosaic.ValueIdx

section Generic

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem fin1_eq (a : Fin 1) : a = 0 := Subsingleton.elim _ _

abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

abbrev gaD1 (N E : Nat) (wfg : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wfg

variable (wfg : GatherDims.WF ⟨1, ![N]⟩ ⟨2, ![E, 1]⟩ ⟨1, ![E]⟩ [] [0] [] [0] [] 1 ![1])

theorem ga1_start (idx : IVec ⟨2, ![E, 1]⟩ w) (e : Fin E) :
    (gaD1 N E wfg).start (ix1 e) idx 0 = min (idx (ix2 e 0)).toInt.toNat (N - 1) := by
  unfold GatherDims.start
  rw [dif_pos (show (0 : Fin 1) ∈ (gaD1 N E wfg).startIndexMap from List.mem_singleton.mpr rfl)]
  have hsi : (gaD1 N E wfg).siIdx (ix1 e) ⟨List.idxOf (0 : Fin 1) (gaD1 N E wfg).startIndexMap,
      List.idxOf_lt_length_iff.2 (List.mem_singleton.mpr rfl)⟩ = ix2 e 0 := by
    funext b
    match b with
    | ⟨0, _⟩ => rfl
    | ⟨1, _⟩ => rfl
  rw [hsi]
  rfl

theorem ga1_off (e : Fin E) : (gaD1 N E wfg).offCoord (ix1 e) 0 = 0 := by
  unfold GatherDims.offCoord
  have h : (0 : Fin 1) ∉ (gaD1 N E wfg).sKept :=
    (by decide : (0 : Fin 1) ∉ (List.finRange 1).filter (fun a => a ∉ ([0] ++ [] : List (Fin 1))))
  rw [dif_neg h]

theorem ga1_apply {α : Type} (hN : 0 < N) (H : (⟨1, ![N]⟩ : Shape).Idx → α) (idx : IVec ⟨2, ![E, 1]⟩ w)
    (e : Fin E) :
    Host.gather (gaD1 N E wfg) H idx (ix1 e)
      = H (ix1 ⟨min (idx (ix2 e 0)).toInt.toNat (N - 1), by omega⟩) := by
  unfold Host.gather
  congr 1
  funext a
  refine Fin.ext ?_
  obtain rfl := fin1_eq a
  show (gaD1 N E wfg).start (ix1 e) idx 0 + (gaD1 N E wfg).batchCoord (ix1 e) 0
    + (gaD1 N E wfg).offCoord (ix1 e) 0 = min (idx (ix2 e 0)).toInt.toNat (N - 1)
  rw [ga1_start, ga1_off, GatherDims.batchCoord_eq_zero _ _ _ List.not_mem_nil, Nat.add_zero]

end Generic

end Cert.Lib.VecPass

end
-- ==== Proof.RefPool.lean ====
import proofs.«431255_j67791763800785_3_alg».proof.ReferenceIdeal
import proofs.«431255_j67791763800785_3_alg».proof.Proof.Spec
import proofs.«431255_j67791763800785_3_alg».proof.Proof.LibRowGatherScatter
import proofs.«431255_j67791763800785_3_alg».proof.Proof.LibVecGatherScatter
import Idealize.ShloMosaic.Lib.IdealHost
import Idealize.ShloMosaic.Lib.Pipeline.Value

noncomputable section

namespace Cert.ReferenceIdeal.RefPool

open Cert.ReferenceIdeal Cert.ReferenceIdeal.Facts₀ Idealize.ShloMosaic Idealize.ShloMosaic.ValueIdx

variable [Facts₀]

def poolOps (h2 : FVec Ideal S100000x128 .f32) (ids : IVec S100000 32) : FVec Ideal S256x128 .f32 :=
  Host.divf
    (Host.scatterAdd scatter_S256x128_S100000x1_S100000x128_1_0_0_1
      (broadcastInDim S256x128 ![] bcast_S_S256x128 (constant S_ .f32 0x00000000#32))
      (broadcastInDim S100000x1 ![0] bcast_S100000_S100000x1_0 ids)
      h2)
    (broadcastInDim S256x128 ![0, 1] bcast_S256x1_S256x128_0_1
      (broadcastInDim S256x1 ![0] bcast_S256_S256x1_0
        (maximumf
          (Host.scatterAdd scatter_S256_S100000x1_S100000_n_0_0_1
            (broadcastInDim S256 ![] bcast_S_S256 (constant S_ .f32 0x00000000#32))
            (broadcastInDim S100000x1 ![0] bcast_S100000_S100000x1_0 ids)
            (broadcastInDim S100000 ![] bcast_S_S100000 (constant S_ .f32 0x3F800000#32)))
          (broadcastInDim S256 ![] bcast_S_S256 (constant S_ .f32 0x3F800000#32)))))

theorem ids_col_apply (ids : IVec S100000 32) (e : Fin 100000) :
    broadcastInDim S100000x1 ![0] bcast_S100000_S100000x1_0 ids (ix2 e 0) = ids (ix1 e) := by
  refine broadcastInDim_apply _ _ _ _ (ix1 e) fun a => ?_
  match a with
  | ⟨0, _⟩ => rfl

theorem col_bcast_apply (m : FVec Ideal S256 .f32) (g : Fin 256) (q : Fin 128) :
    broadcastInDim S256x128 ![0, 1] bcast_S256x1_S256x128_0_1
      (broadcastInDim S256x1 ![0] bcast_S256_S256x1_0 m) (ix2 g q) = m (ix1 g) := by
  rw [broadcastInDim_apply _ _ _ _ (ix2 g (0 : Fin 1)) fun a => by
    match a with
    | ⟨0, _⟩ => rfl
    | ⟨1, _⟩ => rfl]
  refine broadcastInDim_apply _ _ _ _ (ix1 g) fun a => ?_
  match a with
  | ⟨0, _⟩ => rfl

theorem sums_rec : scatter_S256x128_S100000x1_S100000x128_1_0_0_1
    = Cert.Lib.RowPass.scD 256 100000 128 scatter_S256x128_S100000x1_S100000x128_1_0_0_1_wf := rfl

theorem cnts_rec : scatter_S256_S100000x1_S100000_n_0_0_1
    = Cert.Lib.VecPass.scD1 256 100000 scatter_S256_S100000x1_S100000_n_0_0_1_wf := rfl

theorem sums_apply (h2 : FVec Ideal S100000x128 .f32) (ids : IVec S100000 32) (g : Fin 256) (q : Fin 128) :
    Host.scatterAdd scatter_S256x128_S100000x1_S100000x128_1_0_0_1
      (broadcastInDim S256x128 ![] bcast_S_S256x128 (constant (F := Ideal) S_ .f32 0x00000000#32))
      (broadcastInDim S100000x1 ![0] bcast_S100000_S100000x1_0 ids) h2 (ix2 g q)
      = Cert.Spec.poolSum (fun i q => h2 (ix2 i q)) (fun i => ids (ix1 i)) g q := by
  unfold Host.scatterAdd
  rw [Ideal.hostScatterAdd_def, sums_rec, Cert.Lib.RowPass.sc_apply, broadcastInDim_scalar_apply, constant_apply, Ideal.ofBits_zero_f32]
  unfold Cert.Spec.poolSum
  refine congrArg (fun t : EReal => 0 + t) (Finset.sum_congr rfl fun e _ => ?_)
  rw [ids_col_apply]

theorem cnts_apply (ids : IVec S100000 32) (g : Fin 256) :
    Host.scatterAdd scatter_S256_S100000x1_S100000_n_0_0_1
      (broadcastInDim S256 ![] bcast_S_S256 (constant (F := Ideal) S_ .f32 0x00000000#32))
      (broadcastInDim S100000x1 ![0] bcast_S100000_S100000x1_0 ids)
      (broadcastInDim S100000 ![] bcast_S_S100000 (constant (F := Ideal) S_ .f32 0x3F800000#32)) (ix1 g)
      = Cert.Spec.poolCnt (fun i => ids (ix1 i)) g := by
  unfold Host.scatterAdd
  rw [Ideal.hostScatterAdd_def, cnts_rec, Cert.Lib.VecPass.sc1_apply, broadcastInDim_scalar_apply, constant_apply, Ideal.ofBits_zero_f32]
  unfold Cert.Spec.poolCnt
  refine congrArg (fun t : EReal => 0 + t) (Finset.sum_congr rfl fun e _ => ?_)
  rw [ids_col_apply, broadcastInDim_scalar_apply, constant_apply, Ideal.ofBits_one_f32]

theorem poolOps_apply (h2 : FVec Ideal S100000x128 .f32) (ids : IVec S100000 32) (g : Fin 256) (q : Fin 128) :
    poolOps h2 ids (ix2 g q)
      = Cert.Spec.pooledMean (fun i q => h2 (ix2 i q)) (fun i => ids (ix1 i)) g q := by
  unfold poolOps Cert.Spec.pooledMean
  rw [hostDivf_apply, sums_apply, col_bcast_apply, maximumf_apply, cnts_apply, broadcastInDim_scalar_apply,
    constant_apply, Ideal.ofBits_one_f32]

end Cert.ReferenceIdeal.RefPool

end
-- ==== Proof.LeakyOps.lean ====
import proofs.«431255_j67791763800785_3_alg».proof.Proof.Spec
import Idealize.ShloMosaic.Lib.ValueIdx

noncomputable section

namespace Cert.Spec

open Idealize.ShloMosaic Idealize.ShloMosaic.ValueIdx

theorem leaky_select (y : EReal) :
    Scalar.select (Ideal.cmp .oge y 0) y (Ideal.ofBits .f32 0x3C23D70A#32 * y) = leaky y := by
  unfold leaky Scalar.select Ideal.cmp
  by_cases h : (0 : EReal) ≤ y
  · simp [h]
  · simp [h]

theorem leaky_ops_apply {s : Shape} (y z cc : FVec Ideal s .f32) (i : s.Idx) (hz : z i = 0)
    (hc : cc i = Ideal.ofBits .f32 0x3C23D70A#32) :
    select (cmpf .oge y z) y (mulf cc y) i = leaky (y i) := by
  rw [select_apply, cmpf_apply, mulf_apply, hz, hc]
  exact leaky_select (y i)

end Cert.Spec

end
-- ==== Proof.LibMatmul.lean ====
import Idealize.ShloMosaic.Lib.ValueIdx
import Idealize.ShloMosaic.PureOps.Ideal.Laws

noncomputable section

namespace Cert.Lib.MatMul

open Idealize.ShloMosaic Idealize.ShloMosaic.ValueIdx

section Plain

abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

section LeftTransposed

abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.RefMlp.lean ====
import proofs.«431255_j67791763800785_3_alg».proof.ReferenceIdeal
import proofs.«431255_j67791763800785_3_alg».proof.Proof.Spec
import proofs.«431255_j67791763800785_3_alg».proof.Proof.LeakyOps
import proofs.«431255_j67791763800785_3_alg».proof.Proof.LibMatmul
import Idealize.ShloMosaic.Lib.IdealHost
import Idealize.ShloMosaic.Lib.Pipeline.Value

noncomputable section

namespace Cert.ReferenceIdeal.RefMlp

open Cert.ReferenceIdeal Cert.ReferenceIdeal.Facts₀ Idealize.ShloMosaic Idealize.ShloMosaic.ValueIdx

variable [Facts₀]

def biasRows (b : FVec Ideal S128 .f32) : FVec Ideal S256x128 .f32 :=
  broadcastInDim S256x128 ![0, 1] bcast_S1x128_S256x128_0_1 (broadcastInDim S1x128 ![1] bcast_S128_S1x128_1 b)

def fusedOps (pooled : FVec Ideal S256x128 .f32) (a3 : FVec Ideal S256x32 .f32) (a8 : FVec Ideal S128x128 .f32)
    (a9 : FVec Ideal S128 .f32) (a10 : FVec Ideal S32x128 .f32) (a11 : FVec Ideal S128 .f32) :
    FVec Ideal S256x256 .f32 :=
  concatenate S256x256 1
    [⟨S256x128, addf (Host.dotGeneral dot_S256x128_S128x128_S256x128_1_0_0_1_n_n none pooled a8) (biasRows a9)⟩,
     ⟨S256x128, addf (Host.dotGeneral dot_S256x32_S32x128_S256x128_1_0_0_1_n_n none a3 a10) (biasRows a11)⟩]
    concatenates_S256x128_S256x128_S256x256_d1

def lk256 (y : FVec Ideal S256x256 .f32) : FVec Ideal S256x256 .f32 :=
  select (cmpf .oge y (broadcastInDim S256x256 ![] bcast_S_S256x256 (constant S_ .f32 0x00000000#32))) y
    (mulf (broadcastInDim S256x256 ![] bcast_S_S256x256 (constant S_ .f32 0x3C23D70A#32)) y)

def lk128 (y : FVec Ideal S256x128 .f32) : FVec Ideal S256x128 .f32 :=
  select (cmpf .oge y (broadcastInDim S256x128 ![] bcast_S_S256x128 (constant S_ .f32 0x00000000#32))) y
    (mulf (broadcastInDim S256x128 ![] bcast_S_S256x128 (constant S_ .f32 0x3C23D70A#32)) y)

def mlpOps (pooled : FVec Ideal S256x128 .f32) (a3 : FVec Ideal S256x32 .f32) (a8 : FVec Ideal S128x128 .f32)
    (a9 : FVec Ideal S128 .f32) (a10 : FVec Ideal S32x128 .f32) (a11 : FVec Ideal S128 .f32)
    (a12 : FVec Ideal S256x128 .f32) (a13 : FVec Ideal S128 .f32) (a14 : FVec Ideal S128x1 .f32)
    (a15 : FVec Ideal S1 .f32) : FVec Ideal S256x1 .f32 :=
  addf
    (Host.dotGeneral dot_S256x128_S128x1_S256x1_1_0_0_1_n_n none
      (lk128 (addf
        (Host.dotGeneral dot_S256x256_S256x128_S256x128_1_0_0_1_n_n none
          (lk256 (fusedOps pooled a3 a8 a9 a10 a11)) a12)
        (biasRows a13)))
      a14)
    (broadcastInDim S256x1 ![0, 1] bcast_S1x1_S256x1_0_1 (broadcastInDim S1x1 ![1] bcast_S1_S1x1_1 a15))

theorem biasRows_apply (b : FVec Ideal S128 .f32) (g : Fin 256) (k : Fin 128) :
    biasRows b (ix2 g k) = b (ix1 k) := by
  unfold biasRows
  rw [broadcastInDim_apply _ _ _ _ (ix2 (0 : Fin 1) k) fun a => by
    match a with
    | ⟨0, _⟩ => rfl
    | ⟨1, _⟩ => rfl]
  refine broadcastInDim_apply _ _ _ _ (ix1 k) fun a => ?_
  match a with
  | ⟨0, _⟩ => rfl

theorem biasLast_apply (a15 : FVec Ideal S1 .f32) (g : Fin 256) :
    broadcastInDim S256x1 ![0, 1] bcast_S1x1_S256x1_0_1 (broadcastInDim S1x1 ![1] bcast_S1_S1x1_1 a15)
      (ix2 g (0 : Fin 1)) = a15 (ix1 0) := by
  rw [broadcastInDim_apply _ _ _ _ (ix2 (0 : Fin 1) (0 : Fin 1)) fun a => by
    match a with
    | ⟨0, _⟩ => rfl
    | ⟨1, _⟩ => rfl]
  refine broadcastInDim_apply _ _ _ _ (ix1 0) fun a => ?_
  match a with
  | ⟨0, _⟩ => rfl

theorem dot1_rec : dot_S256x128_S128x128_S256x128_1_0_0_1_n_n
    = Cert.Lib.MatMul.mmD 256 128 128 dot_S256x128_S128x128_S256x128_1_0_0_1_n_n_wf := rfl
theorem dot2_rec : dot_S256x32_S32x128_S256x128_1_0_0_1_n_n
    = Cert.Lib.MatMul.mmD 256 32 128 dot_S256x32_S32x128_S256x128_1_0_0_1_n_n_wf := rfl
theorem dot3_rec : dot_S256x256_S256x128_S256x128_1_0_0_1_n_n
    = Cert.Lib.MatMul.mmD 256 256 128 dot_S256x256_S256x128_S256x128_1_0_0_1_n_n_wf := rfl
theorem dot4_rec : dot_S256x128_S128x1_S256x1_1_0_0_1_n_n
    = Cert.Lib.MatMul.mmD 256 128 1 dot_S256x128_S128x1_S256x1_1_0_0_1_n_n_wf := rfl

theorem lk256_apply (y : FVec Ideal S256x256 .f32) (i : S256x256.Idx) : lk256 y i = Cert.Spec.leaky (y i) := by
  unfold lk256
  exact Cert.Spec.leaky_ops_apply y _ _ i
    (by rw [broadcastInDim_scalar_apply, constant_apply, Ideal.ofBits_zero_f32])
    (by rw [broadcastInDim_scalar_apply, constant_apply])

theorem lk128_apply (y : FVec Ideal S256x128 .f32) (i : S256x128.Idx) : lk128 y i = Cert.Spec.leaky (y i) := by
  unfold lk128
  exact Cert.Spec.leaky_ops_apply y _ _ i
    (by rw [broadcastInDim_scalar_apply, constant_apply, Ideal.ofBits_zero_f32])
    (by rw [broadcastInDim_scalar_apply, constant_apply])

theorem fusedOps_apply (pooled : FVec Ideal S256x128 .f32) (a3 : FVec Ideal S256x32 .f32)
    (a8 : FVec Ideal S128x128 .f32) (a9 : FVec Ideal S128 .f32) (a10 : FVec Ideal S32x128 .f32)
    (a11 : FVec Ideal S128 .f32) (g : Fin 256) (j : Fin 256) :
    fusedOps pooled a3 a8 a9 a10 a11 (ix2 g j)
      = Cert.Spec.fused (G := 256) (H2 := 128) (Q := 32) (fun g t => pooled (ix2 g t)) (fun g t => a3 (ix2 g t))
          (fun i j => a8 (ix2 i j)) (fun k => a9 (ix1 k)) (fun i j => a10 (ix2 i j)) (fun k => a11 (ix1 k)) g j := by
  unfold fusedOps Cert.Spec.fused
  by_cases h : j.val < 128
  · rw [dif_pos h]
    rw [concatenate_pair_apply_left (t := S256x256) (s₁ := S256x128) (s₂ := S256x128) (1 : Fin 2) _ _ concatenates_S256x128_S256x128_S256x256_d1 (ix2 g j) rfl
      (ix2 g (⟨j.val, h⟩ : Fin 128)) fun b => by
        match b with
        | ⟨0, _⟩ => rfl
        | ⟨1, _⟩ => rfl]
    rw [addf_apply, biasRows_apply, dot1_rec, Cert.Lib.MatMul.dot_apply]
    rfl
  · rw [dif_neg h]
    have h2 : j.val - 128 < 128 := by have := j.isLt; omega
    rw [concatenate_pair_apply_right (t := S256x256) (s₁ := S256x128) (s₂ := S256x128) (1 : Fin 2) _ _ concatenates_S256x128_S256x128_S256x256_d1 (ix2 g j) rfl rfl
      (ix2 g (⟨j.val - 128, h2⟩ : Fin 128))
      (fun b hb => by
        match b with
        | ⟨0, _⟩ => rfl
        | ⟨1, _⟩ => exact absurd rfl hb)
      (by show (j.val - 128) + 128 = j.val; omega)]
    rw [addf_apply, biasRows_apply, dot2_rec, Cert.Lib.MatMul.dot_apply]
    rfl

theorem mlpOps_apply (pooled : FVec Ideal S256x128 .f32) (a3 : FVec Ideal S256x32 .f32) (a8 : FVec Ideal S128x128 .f32)
    (a9 : FVec Ideal S128 .f32) (a10 : FVec Ideal S32x128 .f32) (a11 : FVec Ideal S128 .f32)
    (a12 : FVec Ideal S256x128 .f32) (a13 : FVec Ideal S128 .f32) (a14 : FVec Ideal S128x1 .f32)
    (a15 : FVec Ideal S1 .f32) (g : Fin 256) :
    mlpOps pooled a3 a8 a9 a10 a11 a12 a13 a14 a15 (ix2 g (0 : Fin 1))
      = Cert.Spec.mlp (G := 256) (H2 := 128) (Q := 32) (fun g t => pooled (ix2 g t)) (fun g t => a3 (ix2 g t))
          (fun i j => a8 (ix2 i j)) (fun k => a9 (ix1 k)) (fun i j => a10 (ix2 i j)) (fun k => a11 (ix1 k))
          (fun i j => a12 (ix2 i j)) (fun k => a13 (ix1 k)) (fun i j => a14 (ix2 i j)) (a15 (ix1 0)) g := by
  unfold mlpOps Cert.Spec.mlp
  rw [addf_apply, biasLast_apply, dot4_rec, Cert.Lib.MatMul.dot_apply]
  refine congrArg (fun t : EReal => t + a15 (ix1 0)) ?_
  unfold Cert.Spec.mm
  refine Finset.sum_congr rfl fun k _ => ?_
  refine congrArg (fun t : EReal => t * a14 (ix2 k (0 : Fin 1))) ?_
  rw [lk128_apply, addf_apply, biasRows_apply, dot3_rec, Cert.Lib.MatMul.dot_apply]
  refine congrArg (fun t : EReal => Cert.Spec.leaky (t + a13 (ix1 k))) ?_
  refine Finset.sum_congr rfl fun j _ => ?_
  rw [lk256_apply, fusedOps_apply]

end Cert.ReferenceIdeal.RefMlp

end
-- ==== Proof.RefValue.lean ====
import proofs.«431255_j67791763800785_3_alg».proof.Proof.RefStages
import proofs.«431255_j67791763800785_3_alg».proof.Proof.Spec
import proofs.«431255_j67791763800785_3_alg».proof.Proof.RefPool
import proofs.«431255_j67791763800785_3_alg».proof.Proof.RefMlp

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

abbrev a1 {n : Nat} {α : Type} (f : (⟨1, ![n]⟩ : Shape).Idx → α) : Fin n → α := fun i => f (ix1 i)
abbrev a2 {n k : Nat} {α : Type} (f : (⟨2, ![n, k]⟩ : Shape).Idx → α) : Fin n → Fin k → α := fun i j => f (ix2 i j)

theorem poolTerm_eq (h2 : FVec Ideal S100000x128 .f32) (ids : IVec S100000 32) :
    poolTerm h2 ids = RefPool.poolOps h2 ids := rfl

theorem mlpTerm_eq (pooled : FVec Ideal S256x128 .f32) (a3 : FVec Ideal S256x32 .f32) (a8 : FVec Ideal S128x128 .f32)
    (a9 : FVec Ideal S128 .f32) (a10 : FVec Ideal S32x128 .f32) (a11 : FVec Ideal S128 .f32)
    (a12 : FVec Ideal S256x128 .f32) (a13 : FVec Ideal S128 .f32) (a14 : FVec Ideal S128x1 .f32)
    (a15 : FVec Ideal S1 .f32) :
    mlpTerm pooled a3 a8 a9 a10 a11 a12 a13 a14 a15 = RefMlp.mlpOps pooled a3 a8 a9 a10 a11 a12 a13 a14 a15 := rfl

variable (m : (ℓ : Loc nD τ sig) → Buf (Elt Ideal) ℓ) (c : Dev nD)

theorem ref_pool (g : Fin 256) (q : Fin 128) :
    RV m c main_v111 (ix2 g q)
      = Cert.Spec.pooledMean (a2 (RV m c main_v99)) (a1 (m ((c.tc : Thread nD τ).loc main_arg2))) g q := by
  rw [C_v111, poolTerm_eq, RefPool.poolOps_apply, RV_arg2]

theorem ref_out (g : Fin 256) :
    RV m c main_v138 (ix2 g (0 : Fin 1))
      = Cert.Spec.mlp (a2 (RV m c main_v111)) (a2 (m ((c.tc : Thread nD τ).loc main_arg3))) (a2 (m ((c.tc : Thread nD τ).loc main_arg8))) (a1 (m ((c.tc : Thread nD τ).loc main_arg9))) (a2 (m ((c.tc : Thread nD τ).loc main_arg10))) (a1 (m ((c.tc : Thread nD τ).loc main_arg11)))
          (a2 (m ((c.tc : Thread nD τ).loc main_arg12))) (a1 (m ((c.tc : Thread nD τ).loc main_arg13))) (a2 (m ((c.tc : Thread nD τ).loc main_arg14))) ((m ((c.tc : Thread nD τ).loc main_arg15)) (ix1 0)) g := by
  rw [C_v138, mlpTerm_eq, RefMlp.mlpOps_apply, RV_arg3, RV_arg8, RV_arg9, RV_arg10, RV_arg11, RV_arg12, RV_arg13,
    RV_arg14, RV_arg15]

end Cert.ReferenceIdeal.RefValue

end
-- ==== Proof.RefLayer.lean ====
import proofs.«431255_j67791763800785_3_alg».proof.ReferenceIdeal
import proofs.«431255_j67791763800785_3_alg».proof.Proof.Spec
import proofs.«431255_j67791763800785_3_alg».proof.Proof.LibRowGatherScatter
import proofs.«431255_j67791763800785_3_alg».proof.Proof.LibVecGatherScatter
import proofs.«431255_j67791763800785_3_alg».proof.Proof.LibMatmul
import Idealize.ShloMosaic.Lib.Pipeline.Value
import Idealize.ShloMosaic.Lib.ValueIdx
import Idealize.ShloMosaic.PureOps.Ideal.Laws

noncomputable section

namespace Cert.ReferenceIdeal.RefLayer

open Cert.ReferenceIdeal Cert.Spec Cert.Lib Idealize.ShloMosaic Idealize.ShloMosaic.ValueIdx Idealize.SL.Sem

variable [Facts₀]
open Facts₀

section Term

variable {F : FTy → Type} [FloatOps F]

def norm (dv : FVec F S100000 .f32) (src2 tgt2 : IVec S1700000x1 32) : FVec F S1700000 .f32 :=
  mulf (Host.gather gather_S100000_S1700000x1_S1700000_n_0_n_n_0_1_1 dv src2)
    (Host.gather gather_S100000_S1700000x1_S1700000_n_0_n_n_0_1_1 dv tgt2)

def msgs (Hh : FVec F S100000x128 .f32) (dv : FVec F S100000 .f32) (src2 tgt2 : IVec S1700000x1 32) :
    FVec F S1700000x128 .f32 :=
  mulf (Host.gather gather_S100000x128_S1700000x1_S1700000x128_1_0_n_n_0_1_1128 Hh src2)
    (broadcastInDim S1700000x128 ![0, 1] bcast_S1700000x1_S1700000x128_0_1
      (broadcastInDim S1700000x1 ![0] bcast_S1700000_S1700000x1_0 (norm dv src2 tgt2)))

def agg (Hh : FVec F S100000x128 .f32) (dv : FVec F S100000 .f32) (src2 tgt2 dst2 : IVec S1700000x1 32) :
    FVec F S100000x128 .f32 :=
  Host.scatterAdd scatter_S100000x128_S1700000x1_S1700000x128_1_0_0_1
    (broadcastInDim S100000x128 ![] bcast_S_S100000x128 (constant S_ .f32 0x00000000#32)) dst2 (msgs Hh dv src2 tgt2)

def pre (Hh : FVec F S100000x128 .f32) (dv : FVec F S100000 .f32) (src2 tgt2 dst2 : IVec S1700000x1 32)
    (bias : FVec F S128 .f32) : FVec F S100000x128 .f32 :=
  addf (agg Hh dv src2 tgt2 dst2)
    (broadcastInDim S100000x128 ![0, 1] bcast_S1x128_S100000x128_0_1 (broadcastInDim S1x128 ![1] bcast_S128_S1x128_1 bias))

def layerOps (Hh : FVec F S100000x128 .f32) (dv : FVec F S100000 .f32) (src2 tgt2 dst2 : IVec S1700000x1 32)
    (bias : FVec F S128 .f32) : FVec F S100000x128 .f32 :=
  select
    (cmpf .oge (pre Hh dv src2 tgt2 dst2 bias)
      (broadcastInDim S100000x128 ![] bcast_S_S100000x128 (constant S_ .f32 0x00000000#32)))
    (pre Hh dv src2 tgt2 dst2 bias)
    (mulf (broadcastInDim S100000x128 ![] bcast_S_S100000x128 (constant S_ .f32 0x3C23D70A#32))
      (pre Hh dv src2 tgt2 dst2 bias))

theorem agg_def (Hh : FVec F S100000x128 .f32) (dv : FVec F S100000 .f32) (src2 tgt2 dst2 : IVec S1700000x1 32) :
    agg Hh dv src2 tgt2 dst2 = Host.scatterAdd scatter_S100000x128_S1700000x1_S1700000x128_1_0_0_1
      (broadcastInDim S100000x128 ![] bcast_S_S100000x128 (constant S_ .f32 0x00000000#32)) dst2
      (msgs Hh dv src2 tgt2) := rfl
theorem pre_def (Hh : FVec F S100000x128 .f32) (dv : FVec F S100000 .f32) (src2 tgt2 dst2 : IVec S1700000x1 32)
    (bias : FVec F S128 .f32) :
    pre Hh dv src2 tgt2 dst2 bias = addf (agg Hh dv src2 tgt2 dst2)
      (broadcastInDim S100000x128 ![0, 1] bcast_S1x128_S100000x128_0_1
        (broadcastInDim S1x128 ![1] bcast_S128_S1x128_1 bias)) := rfl
theorem layerOps_def (Hh : FVec F S100000x128 .f32) (dv : FVec F S100000 .f32) (src2 tgt2 dst2 : IVec S1700000x1 32)
    (bias : FVec F S128 .f32) :
    layerOps Hh dv src2 tgt2 dst2 bias = select
      (cmpf .oge (pre Hh dv src2 tgt2 dst2 bias)
        (broadcastInDim S100000x128 ![] bcast_S_S100000x128 (constant S_ .f32 0x00000000#32)))
      (pre Hh dv src2 tgt2 dst2 bias)
      (mulf (broadcastInDim S100000x128 ![] bcast_S_S100000x128 (constant S_ .f32 0x3C23D70A#32))
        (pre Hh dv src2 tgt2 dst2 bias)) := rfl

end Term

section AtIdeal

theorem g1_eq : gather_S100000_S1700000x1_S1700000_n_0_n_n_0_1_1
    = VecPass.gaD1 100000 1700000 gather_S100000_S1700000x1_S1700000_n_0_n_n_0_1_1_wf := rfl
theorem g2_eq : gather_S100000x128_S1700000x1_S1700000x128_1_0_n_n_0_1_1128
    = RowPass.gaD 100000 1700000 128 gather_S100000x128_S1700000x1_S1700000x128_1_0_n_n_0_1_1128_wf := rfl
theorem sc_eq : scatter_S100000x128_S1700000x1_S1700000x128_1_0_0_1
    = RowPass.scD 100000 1700000 128 scatter_S100000x128_S1700000x1_S1700000x128_1_0_0_1_wf := rfl

theorem hN : 0 < 100000 := by decide

theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

variable (Hh : FVec Ideal S100000x128 .f32) (dv : FVec Ideal S100000 .f32) (src2 tgt2 dst2 : IVec S1700000x1 32)
  (bias : FVec Ideal S128 .f32)

theorem norm_apply (e : Fin 1700000) :
    norm dv src2 tgt2 (ix1 e)
      = dv (ix1 ⟨gidx 100000 (src2 (ix2 e 0)), gidx_lt hN _⟩) * dv (ix1 ⟨gidx 100000 (tgt2 (ix2 e 0)), gidx_lt hN _⟩) := by
  show Host.gather gather_S100000_S1700000x1_S1700000_n_0_n_n_0_1_1 dv src2 (ix1 e)
    * Host.gather gather_S100000_S1700000x1_S1700000_n_0_n_n_0_1_1 dv tgt2 (ix1 e) = _
  rw [g1_eq, VecPass.ga1_apply _ hN, VecPass.ga1_apply _ hN]
  rfl

theorem msgs_apply (e : Fin 1700000) (q : Fin 128) :
    msgs Hh dv src2 tgt2 (ix2 e q)
      = Hh (ix2 ⟨gidx 100000 (src2 (ix2 e 0)), gidx_lt hN _⟩ q)
        * (dv (ix1 ⟨gidx 100000 (src2 (ix2 e 0)), gidx_lt hN _⟩) * dv (ix1 ⟨gidx 100000 (tgt2 (ix2 e 0)), gidx_lt hN _⟩)) := by
  show Host.gather gather_S100000x128_S1700000x1_S1700000x128_1_0_n_n_0_1_1128 Hh src2 (ix2 e q)
    * broadcastInDim S1700000x128 ![0, 1] bcast_S1700000x1_S1700000x128_0_1
        (broadcastInDim S1700000x1 ![0] bcast_S1700000_S1700000x1_0 (norm dv src2 tgt2)) (ix2 e q) = _
  rw [g2_eq, RowPass.ga_apply _ hN,
    broadcastInDim_apply _ bcast_S1700000x1_S1700000x128_0_1 _ (ix2 e q) (ix2 e 0) (fun a => match a with
      | ⟨0, _⟩ => by show e.val = if (1700000 : Nat) = 1 then 0 else e.val; rw [if_neg (by decide)]
      | ⟨1, _⟩ => by show (0 : Nat) = if (1 : Nat) = 1 then 0 else q.val; rw [if_pos rfl]),
    broadcastInDim_apply _ bcast_S1700000_S1700000x1_0 _ (ix2 e 0) (ix1 e) (fun a => match a with
      | ⟨0, _⟩ => by show e.val = if (1700000 : Nat) = 1 then 0 else e.val; rw [if_neg (by decide)]),
    norm_apply]
  rfl

theorem agg_apply (v : Fin 100000) (q : Fin 128) :
    agg Hh dv src2 tgt2 dst2 (ix2 v q)
      = aggR (N := 100000) (M := 1700000) (W := 128) hN (fun i q => Hh (ix2 i q)) (fun i => dv (ix1 i))
          (fun e => src2 (ix2 e 0)) (fun e => tgt2 (ix2 e 0)) (fun e => dst2 (ix2 e 0)) v q := by
  rw [agg_def, scatterAdd_ideal, sc_eq, RowPass.sc_apply,
    broadcastInDim_apply _ bcast_S_S100000x128 _ (ix2 v q) ix0 (fun a => a.elim0), constant_apply,
    Ideal.ofBits_zero_f32]
  unfold aggR
  refine congrArg (0 + ·) (Finset.sum_congr rfl fun e _ => ?_)
  rw [msgs_apply]

theorem pre_apply (v : Fin 100000) (q : Fin 128) :
    pre Hh dv src2 tgt2 dst2 bias (ix2 v q)
      = aggR (N := 100000) (M := 1700000) (W := 128) hN (fun i q => Hh (ix2 i q)) (fun i => dv (ix1 i))
          (fun e => src2 (ix2 e 0)) (fun e => tgt2 (ix2 e 0)) (fun e => dst2 (ix2 e 0)) v q + bias (ix1 q) := by
  rw [pre_def, addf_apply, agg_apply,
    broadcastInDim_apply _ bcast_S1x128_S100000x128_0_1 _ (ix2 v q) (ix2 0 q) (fun a => match a with
      | ⟨0, _⟩ => by show (0 : Nat) = if (1 : Nat) = 1 then 0 else v.val; rw [if_pos rfl]
      | ⟨1, _⟩ => by show q.val = if (128 : Nat) = 1 then 0 else q.val; rw [if_neg (by decide)]),
    broadcastInDim_apply _ bcast_S128_S1x128_1 _ (ix2 0 q) (ix1 q) (fun a => match a with
      | ⟨0, _⟩ => by show q.val = if (128 : Nat) = 1 then 0 else q.val; rw [if_neg (by decide)])]

theorem select_cmp_oge (y k : EReal) :
    Scalar.select (Ideal.cmp .oge y 0) y (k * y) = if 0 ≤ y then y else k * y := by
  unfold Scalar.select Ideal.cmp
  by_cases h : (0 : EReal) ≤ y
  · simp [h]
  · simp [h]

theorem layerR_eq {N M W : Nat} (hN : 0 < N) (H : Fin N → Fin W → EReal) (d : Fin N → EReal)
    (src tgt dst : Fin M → BitVec 32) (b : Fin W → EReal) (v : Fin N) (q : Fin W) :
    layerR hN H d src tgt dst b v q
      = if 0 ≤ aggR hN H d src tgt dst v q + b q then aggR hN H d src tgt dst v q + b q
        else Ideal.ofBits .f32 0x3C23D70A#32 * (aggR hN H d src tgt dst v q + b q) := rfl

theorem layerOps_apply (v : Fin 100000) (q : Fin 128) :
    layerOps Hh dv src2 tgt2 dst2 bias (ix2 v q)
      = layerR (N := 100000) (M := 1700000) (W := 128) hN (fun i q => Hh (ix2 i q)) (fun i => dv (ix1 i))
          (fun e => src2 (ix2 e 0)) (fun e => tgt2 (ix2 e 0)) (fun e => dst2 (ix2 e 0)) (fun q => bias (ix1 q)) v q := by
  rw [layerR_eq, layerOps_def, select_apply, cmpf_apply, mulf_apply,
    broadcastInDim_apply _ bcast_S_S100000x128 (constant (F := Ideal) S_ .f32 0x00000000#32) (ix2 v q) ix0 (fun a => a.elim0),
    broadcastInDim_apply _ bcast_S_S100000x128 (constant (F := Ideal) S_ .f32 0x3C23D70A#32) (ix2 v q) ix0 (fun a => a.elim0),
    constant_apply, constant_apply, Ideal.cmpf_def, Ideal.ofBits_zero_f32, select_cmp_oge, pre_apply]

end AtIdeal

section Dense

theorem dense1_apply (x : FVec Ideal S100000x64 .f32) (w : FVec Ideal S64x128 .f32) (i : Fin 100000) (q : Fin 128) :
    Host.dotGeneral (F := Ideal) dot_S100000x64_S64x128_S100000x128_1_0_0_1_n_n none x w (ix2 i q)
      = mm (fun (i : Fin 100000) (k : Fin 64) => x (ix2 i k)) (fun (k : Fin 64) (q : Fin 128) => w (ix2 k q)) i q :=
  MatMul.dot_apply dot_S100000x64_S64x128_S100000x128_1_0_0_1_n_n_wf none x w i q

theorem dense2_apply (x : FVec Ideal S100000x128 .f32) (w : FVec Ideal S128x128 .f32) (i : Fin 100000) (q : Fin 128) :
    Host.dotGeneral (F := Ideal) dot_S100000x128_S128x128_S100000x128_1_0_0_1_n_n none x w (ix2 i q)
      = mm (fun (i : Fin 100000) (k : Fin 128) => x (ix2 i k)) (fun (k : Fin 128) (q : Fin 128) => w (ix2 k q)) i q :=
  MatMul.dot_apply dot_S100000x128_S128x128_S100000x128_1_0_0_1_n_n_wf none x w i q

end Dense

end Cert.ReferenceIdeal.RefLayer

end
-- ==== Proof.RefValueLayers.lean ====
import proofs.«431255_j67791763800785_3_alg».proof.Proof.RefValue
import proofs.«431255_j67791763800785_3_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

theorem layerTerm_eq (Hh : FVec Ideal S100000x128 .f32) (dv : FVec Ideal S100000 .f32) (src2 tgt2 dst2 : IVec S1700000x1 32)
    (bias : FVec Ideal S128 .f32) :
    layerTerm Hh dv src2 tgt2 dst2 bias = RefLayer.layerOps Hh dv src2 tgt2 dst2 bias := rfl

variable (m : (ℓ : Loc nD τ sig) → Buf (Elt Ideal) ℓ) (c : Dev nD)

theorem ref_dense1 :
    (fun (i : Fin 100000) (q : Fin 128) => RV m c main_v4 (ix2 i q))
      = Cert.Spec.mm (a2 (m ((c.tc : Thread nD τ).loc main_arg0))) (a2 (m ((c.tc : Thread nD τ).loc main_arg4))) := by
  funext i q
  rw [E_v4, RefLayer.dense1_apply, RV_arg0, RV_arg4]

theorem ref_dense2 :
    (fun (i : Fin 100000) (q : Fin 128) => RV m c main_v52 (ix2 i q))
      = Cert.Spec.mm (a2 (RV m c main_v51)) (a2 (m ((c.tc : Thread nD τ).loc main_arg6))) := by
  funext i q
  rw [E_v52, RefLayer.dense2_apply, RV_arg6]

theorem ref_h1 (v : Fin 100000) (q : Fin 128) :
    RV m c main_v51 (ix2 v q)
      = Cert.Spec.layerR RefLayer.hN (Cert.Spec.mm (a2 (m ((c.tc : Thread nD τ).loc main_arg0))) (a2 (m ((c.tc : Thread nD τ).loc main_arg4)))) (a1 (RV m c main_v15))
          (fun e => RV m c main_v36 (ix2 e 0)) (fun e => RV m c main_v28 (ix2 e 0)) (fun e => RV m c main_v42 (ix2 e 0))
          (a1 (m ((c.tc : Thread nD τ).loc main_arg5))) v q := by
  rw [C_v51, layerTerm_eq, RefLayer.layerOps_apply, ref_dense1, RV_arg5]

theorem ref_h2 (v : Fin 100000) (q : Fin 128) :
    RV m c main_v99 (ix2 v q)
      = Cert.Spec.layerR RefLayer.hN (Cert.Spec.mm (a2 (RV m c main_v51)) (a2 (m ((c.tc : Thread nD τ).loc main_arg6)))) (a1 (RV m c main_v15))
          (fun e => RV m c main_v36 (ix2 e 0)) (fun e => RV m c main_v28 (ix2 e 0)) (fun e => RV m c main_v42 (ix2 e 0))
          (a1 (m ((c.tc : Thread nD τ).loc main_arg7))) v q := by
  rw [C_v99, I_v63, I_v84, I_v76, I_v90, layerTerm_eq, RefLayer.layerOps_apply, ref_dense2, RV_arg7]

end Cert.ReferenceIdeal.RefValue

end
-- ==== Proof.Algebra.lean ====
import proofs.«431255_j67791763800785_3_alg».proof.Proof.Spec
import Idealize.ShloMosaic.PureOps.Ideal
import Mathlib.Data.EReal.Operations
import Mathlib.Analysis.Real.Sqrt
import Mathlib.Algebra.BigOperators.Fin
import Mathlib.Logic.Equiv.Fin.Basic

noncomputable section

namespace Cert.Spec

open Idealize.ShloMosaic

theorem sum_mul_coe_nonneg {ι : Type*} [Fintype ι] (f : ι → EReal) {x : ℝ} (hx : 0 ≤ x) :
    (∑ e, f e) * (x : EReal) = ∑ e, f e * (x : EReal) := by
  classical
  have hx' : (0 : EReal) ≤ (x : EReal) := EReal.coe_nonneg.mpr hx
  have key : ∀ s : Finset ι, (∑ e ∈ s, f e) * (x : EReal) = ∑ e ∈ s, f e * (x : EReal) := by
    intro s
    induction s using Finset.induction_on with
    | empty => simp
    | insert a s ha ih =>
      rw [Finset.sum_insert ha, Finset.sum_insert ha,
        EReal.right_distrib_of_nonneg_of_ne_top hx' (EReal.coe_ne_top x), ih]
  exact key Finset.univ

theorem ite_zero_mul (p : Prop) [Decidable p] (a y : EReal) :
    (if p then a else 0) * y = if p then a * y else 0 := by
  by_cases h : p
  · rw [if_pos h, if_pos h]
  · rw [if_neg h, if_neg h, zero_mul]

theorem agg_law {N M W : Nat} (hN : 0 < N) (H : Fin N → Fin W → EReal) (d : Fin N → EReal)
    (src tgt dst : Fin M → BitVec 32)
    (hd : ∀ v, ∃ x : ℝ, 0 ≤ x ∧ d v = (x : EReal))
    (htgt : ∀ e (v : Fin N), (dst e).toInt = (v.val : Int) → gidx N (tgt e) = v.val)
    (v : Fin N) (q : Fin W) :
    aggK hN (fun i q => H i q * d i) src dst v q * d v = aggR hN H d src tgt dst v q := by
  obtain ⟨x, hx, hdv⟩ := hd v
  unfold aggK aggR
  rw [zero_add, zero_add, hdv, sum_mul_coe_nonneg _ hx]
  refine Finset.sum_congr rfl fun e _ => ?_
  rw [ite_zero_mul]
  by_cases h : (dst e).toInt = (v.val : Int)
  · rw [if_pos h, if_pos h]
    have hv : (⟨gidx N (tgt e), gidx_lt hN _⟩ : Fin N) = v := Fin.ext (htgt e v h)
    rw [hv, hdv, mul_assoc]
  · rw [if_neg h, if_neg h]

theorem layer_law {N M W : Nat} (hN : 0 < N) (H : Fin N → Fin W → EReal) (d : Fin N → EReal)
    (src tgt dst : Fin M → BitVec 32) (b : Fin W → EReal)
    (hd : ∀ v, ∃ x : ℝ, 0 ≤ x ∧ d v = (x : EReal))
    (htgt : ∀ e (v : Fin N), (dst e).toInt = (v.val : Int) → gidx N (tgt e) = v.val)
    (v : Fin N) (q : Fin W) :
    layerK hN H d src dst b v q = layerR hN H d src tgt dst b v q := by
  unfold layerK layerR
  rw [agg_law hN H d src tgt dst hd htgt v q]

theorem gidx_of_toInt {N : Nat} (w : BitVec 32) (v : Fin N) (h : w.toInt = (v.val : Int)) :
    gidx N w = v.val := by
  have hv := v.isLt
  unfold gidx
  rw [h]
  omega

theorem slt_zero_of_toInt {N : Nat} (w : BitVec 32) (v : Fin N) (h : w.toInt = (v.val : Int)) :
    w.slt 0#32 = false := by
  have h0 : (0#32 : BitVec 32).toInt = 0 := by decide
  unfold BitVec.slt
  rw [h, h0]
  exact decide_eq_false (by omega)

theorem gidx_wrap_select {N : Nat} (hN : 0 < N) (hN31 : N < 2 ^ 31) (w : BitVec 32) (v : Fin N)
    (h : w.toInt = (v.val : Int)) :
    gidx N (Scalar.select (IntOp.cmpi .slt w 0#32) (IntOp.addi w (BitVec.ofNat 32 N)) w) = v.val := by
  have hc : IntOp.cmpi .slt w 0#32 = 0#1 := by
    unfold IntOp.cmpi
    simp only [slt_zero_of_toInt w v h]
    rfl
  unfold Scalar.select
  rw [hc, if_neg (by decide)]
  exact gidx_of_toInt w v h

theorem count_is_nat {M : Nat} (p : Fin M → Prop) [DecidablePred p] :
    ∃ n : ℕ, (0 + ∑ e : Fin M, if p e then (1 : EReal) else 0) = ((n : ℝ) : EReal) := by
  have key : ∀ s : Finset (Fin M), ∃ n : ℕ, (∑ e ∈ s, if p e then (1 : EReal) else 0) = ((n : ℝ) : EReal) := by
    intro s
    induction s using Finset.induction_on with
    | empty => exact ⟨0, by simp⟩
    | insert a s ha ih =>
      obtain ⟨n, hn⟩ := ih
      rw [Finset.sum_insert ha, hn]
      by_cases h : p a
      · refine ⟨n + 1, ?_⟩
        rw [if_pos h, Nat.cast_add, Nat.cast_one, EReal.coe_add, EReal.coe_one, add_comm]
      · exact ⟨n, by rw [if_neg h, zero_add]⟩
  obtain ⟨n, hn⟩ := key Finset.univ
  exact ⟨n, by rw [zero_add, hn]⟩

theorem dinv_nonneg_real_of_real (r : ℝ) :
    ∃ x : ℝ, 0 ≤ x ∧ (if (0 : EReal) < (r : EReal) then Ideal.rsqrt (r : EReal) else 0) = (x : EReal) := by
  by_cases h : (0 : EReal) < (r : EReal)
  · have hr : 0 < r := EReal.coe_pos.mp h
    refine ⟨(Real.sqrt r)⁻¹, inv_nonneg.mpr (Real.sqrt_nonneg r), ?_⟩
    rw [if_pos h, Ideal.rsqrt_coe, if_neg (not_lt.mpr hr.le), if_neg hr.ne']
  · exact ⟨0, le_refl 0, by rw [if_neg h, EReal.coe_zero]⟩

theorem dinv_nonneg_real (D : EReal) (hD : ∃ n : ℕ, D = ((n : ℝ) : EReal)) :
    ∃ x : ℝ, 0 ≤ x ∧ (if 0 < D then Ideal.rsqrt D else 0) = (x : EReal) := by
  obtain ⟨n, rfl⟩ := hD
  exact dinv_nonneg_real_of_real (n : ℝ)

theorem select_cmp_ogt (D a b : EReal) :
    Scalar.select (Ideal.cmp .ogt D 0) a b = if 0 < D then a else b := by
  unfold Scalar.select Ideal.cmp
  by_cases h : (0 : EReal) < D
  · simp [h]
  · simp [h]

theorem dinv_nonneg_real_select (D : EReal) (hD : ∃ n : ℕ, D = ((n : ℝ) : EReal)) :
    ∃ x : ℝ, 0 ≤ x ∧ Scalar.select (Ideal.cmp .ogt D 0) (Ideal.rsqrt D) 0 = (x : EReal) := by
  rw [select_cmp_ogt]
  exact dinv_nonneg_real D hD

section Pool

variable {n s G W : Nat}

def blk (k : Fin n) (i : Fin s) : Fin (n * s) :=
  ⟨k.val * s + i.val, by
    have hk := k.isLt
    have hi := i.isLt
    calc k.val * s + i.val < k.val * s + s := by omega
      _ = (k.val + 1) * s := by rw [Nat.add_mul, Nat.one_mul]
      _ ≤ n * s := Nat.mul_le_mul_right s hk⟩

@[simp] theorem blk_val (k : Fin n) (i : Fin s) : (blk k i).val = k.val * s + i.val := rfl

theorem sum_blocks (F : Fin (n * s) → EReal) : ∑ j : Fin (n * s), F j = ∑ k : Fin n, ∑ i : Fin s, F (blk k i) := by
  rw [← Equiv.sum_comp finProdFinEquiv F, Fintype.sum_prod_type]
  refine Finset.sum_congr rfl fun k _ => Finset.sum_congr rfl fun i _ => ?_
  congr 1
  apply Fin.ext
  simp only [finProdFinEquiv_apply_val, blk_val]
  rw [Nat.mul_comm, Nat.add_comm]

theorem fold_blocks (T : Fin n → EReal) (a : ℕ → EReal) (h0 : a 0 = 0)
    (hstep : ∀ k (hk : k < n), a (k + 1) = a k + (0 + T ⟨k, hk⟩)) :
    a n = ∑ k : Fin n, T k := by
  have key : ∀ m (hm : m ≤ n), a m = ∑ k ∈ Finset.range m, (if hk : k < n then T ⟨k, hk⟩ else 0) := by
    intro m
    induction m with
    | zero => intro _; rw [h0, Finset.range_zero, Finset.sum_empty]
    | succ m ih =>
      intro hm
      have hlt : m < n := hm
      rw [hstep m hlt, ih (Nat.le_of_lt hlt), Finset.sum_range_succ, dif_pos hlt, zero_add]
  rw [key n (le_refl n), ← Fin.sum_univ_eq_sum_range (fun k => if hk : k < n then T ⟨k, hk⟩ else 0) n]
  refine Finset.sum_congr rfl fun k _ => ?_
  rw [dif_pos k.isLt]

variable (h : Fin (n * s) → Fin W → EReal) (ids : Fin (n * s) → BitVec 32) (g : Fin G) (q : Fin W)

def oh (j : Fin (n * s)) : EReal := if (ids j).toInt = (g.val : Int) then (1 : EReal) else 0

theorem oh_mul (j : Fin (n * s)) (y : EReal) :
    oh ids g j * y = if (ids j).toInt = (g.val : Int) then y else 0 := by
  unfold oh
  rw [ite_zero_mul, one_mul]

theorem pool_blocks_of_rec (a : ℕ → EReal) (h0 : a 0 = 0)
    (hstep : ∀ k (hk : k < n), a (k + 1) = a k + (0 + ∑ i : Fin s, oh ids g (blk ⟨k, hk⟩ i) * h (blk ⟨k, hk⟩ i) q)) :
    a n = poolSum h ids g q := by
  rw [fold_blocks (fun k => ∑ i : Fin s, oh ids g (blk k i) * h (blk k i) q) a h0 hstep]
  unfold poolSum
  rw [zero_add, sum_blocks]
  refine Finset.sum_congr rfl fun k _ => Finset.sum_congr rfl fun i _ => ?_
  rw [oh_mul]

theorem cnt_blocks_of_rec (a : ℕ → EReal) (h0 : a 0 = 0)
    (hstep : ∀ k (hk : k < n), a (k + 1) = a k + (0 + ∑ i : Fin s, oh ids g (blk ⟨k, hk⟩ i))) :
    a n = poolCnt ids g := by
  rw [fold_blocks (fun k => ∑ i : Fin s, oh ids g (blk k i)) a h0 hstep]
  unfold poolCnt
  rw [zero_add, sum_blocks]
  rfl

end Pool

end Cert.Spec

end
-- ==== Proof.RefFacts.lean ====
import proofs.«431255_j67791763800785_3_alg».proof.Proof.RefStages
import proofs.«431255_j67791763800785_3_alg».proof.Proof.Spec
import proofs.«431255_j67791763800785_3_alg».proof.Proof.Algebra
import proofs.«431255_j67791763800785_3_alg».proof.Proof.LibVecGatherScatter
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

theorem colM_apply {α : Type} (x : S1700000.Idx → α) (e : Fin 1700000) (z : Fin 1) : colM x (ix2 e z) = x (ix1 e) := by
  refine broadcastInDim_apply _ _ _ _ (ix1 e) fun a => ?_
  match a with
  | ⟨0, _⟩ => rfl

theorem wrapIdx_apply (x : IVec S1700000 32) (e : Fin 1700000) :
    wrapIdx x (ix1 e)
      = Scalar.select (IntOp.cmpi .slt (x (ix1 e)) 0#32) (IntOp.addi (x (ix1 e)) (BitVec.ofNat 32 100000)) (x (ix1 e)) := rfl

theorem deg_rec : scatter_S100000_S1700000x1_S1700000_n_0_0_1
    = Cert.Lib.VecPass.scD1 100000 1700000 scatter_S100000_S1700000x1_S1700000_n_0_0_1_wf := rfl

theorem hostScatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

theorem zN_apply (i : S100000.Idx) : zN (F := Ideal) i = 0 := by
  show broadcastInDim S100000 ![] bcast_S_S100000 (constant (F := Ideal) S_ .f32 0x00000000#32) i = 0
  rw [broadcastInDim_scalar_apply, constant_apply, Ideal.ofBits_zero_f32]

theorem oM_apply (i : S1700000.Idx) : oM (F := Ideal) i = 1 := by
  show broadcastInDim S1700000 ![] bcast_S_S1700000 (constant (F := Ideal) S_ .f32 0x3F800000#32) i = 1
  rw [broadcastInDim_scalar_apply, constant_apply, Ideal.ofBits_one_f32]

theorem degOf_apply (dst : IVec S1700000 32) (v : Fin 100000) :
    degOf (F := Ideal) (colM dst) (ix1 v)
      = 0 + ∑ e : Fin 1700000, if (dst (ix1 e)).toInt = (v.val : Int) then (1 : EReal) else 0 := by
  rw [degOf, hostScatterAdd_ideal, deg_rec, Cert.Lib.VecPass.sc1_apply, zN_apply]
  refine congrArg (fun t : EReal => 0 + t) (Finset.sum_congr rfl fun e _ => ?_)
  rw [colM_apply, oM_apply]

theorem dinvOf_apply (deg : FVec Ideal S100000 .f32) (v : Fin 100000) :
    dinvOf deg (ix1 v) = Scalar.select (Ideal.cmp .ogt (deg (ix1 v)) 0) (Ideal.rsqrt (deg (ix1 v))) 0 := by
  rw [dinvOf, select_apply, cmpf_apply, zN_apply]
  rfl

theorem dinvOf_degOf_real (dst : IVec S1700000 32) (v : Fin 100000) :
    ∃ x : ℝ, 0 ≤ x ∧ dinvOf (F := Ideal) (degOf (colM dst)) (ix1 v) = (x : EReal) := by
  rw [dinvOf_apply, degOf_apply]
  exact Cert.Spec.dinv_nonneg_real_select _ (Cert.Spec.count_is_nat _)

theorem wrapIdx_kept (dst : IVec S1700000 32) (e : Fin 1700000) (v : Fin 100000)
    (h : (dst (ix1 e)).toInt = (v.val : Int)) : Cert.Spec.gidx 100000 (wrapIdx dst (ix1 e)) = v.val := by
  rw [wrapIdx_apply]
  exact Cert.Spec.gidx_wrap_select (by decide) (by decide) _ v h

variable (m : (ℓ : Loc nD τ sig) → Buf (Elt Ideal) ℓ) (c : Dev nD)

theorem ref_dinv_real (v : Fin 100000) : ∃ x : ℝ, 0 ≤ x ∧ RV m c main_v15 (ix1 v) = (x : EReal) := by
  rw [E_v15, E_v11]
  exact dinvOf_degOf_real _ v

theorem ref_tgt (e : Fin 1700000) (v : Fin 100000) (h : BitVec.toInt (RV m c main_v7 (ix1 e)) = (v.val : Int)) :
    Cert.Spec.gidx 100000 (RV m c main_v27 (ix1 e)) = v.val := by
  rw [E_v27]
  exact wrapIdx_kept _ e v h

theorem ref_tgt_col (e : Fin 1700000) (v : Fin 100000)
    (h : (RV m c main_v42 (ix2 e (0 : Fin 1))).toInt = (v.val : Int)) :
    Cert.Spec.gidx 100000 (RV m c main_v28 (ix2 e (0 : Fin 1))) = v.val := by
  rw [E_v28, colM_apply]
  rw [E_v42, colM_apply] at h
  exact ref_tgt m c e v h

theorem v36_apply (e : Fin 1700000) (z : Fin 1) : RV m c main_v36 (ix2 e z) = RV m c main_v20 (ix1 e) := by
  rw [E_v36, I_v35, colM_apply]
theorem v42_apply (e : Fin 1700000) (z : Fin 1) : RV m c main_v42 (ix2 e z) = RV m c main_v7 (ix1 e) := by
  rw [E_v42, colM_apply]
end Cert.ReferenceIdeal.RefValue

end
-- ==== Proof.RefValueK.lean ====
import proofs.«431255_j67791763800785_3_alg».proof.Proof.RefValueLayers
import proofs.«431255_j67791763800785_3_alg».proof.Proof.Algebra
import proofs.«431255_j67791763800785_3_alg».proof.Proof.RefFacts

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

theorem ref_h1K_of
    (hd : ∀ v : Fin 100000, ∃ x : ℝ, 0 ≤ x ∧ RV m c main_v15 (ix1 v) = (x : EReal))
    (htgt : ∀ (e : Fin 1700000) (v : Fin 100000), BitVec.toInt (RV m c main_v42 (ix2 e 0)) = (v.val : Int) →
      Cert.Spec.gidx 100000 (RV m c main_v28 (ix2 e 0)) = v.val)
    (v : Fin 100000) (q : Fin 128) :
    RV m c main_v51 (ix2 v q)
      = Cert.Spec.layerK RefLayer.hN (Cert.Spec.mm (a2 (m ((c.tc : Thread nD τ).loc main_arg0))) (a2 (m ((c.tc : Thread nD τ).loc main_arg4)))) (a1 (RV m c main_v15))
          (fun e => RV m c main_v36 (ix2 e 0)) (fun e => RV m c main_v42 (ix2 e 0)) (a1 (m ((c.tc : Thread nD τ).loc main_arg5))) v q :=
  (ref_h1 m c v q).trans
    (Cert.Spec.layer_law RefLayer.hN (Cert.Spec.mm (a2 (m ((c.tc : Thread nD τ).loc main_arg0))) (a2 (m ((c.tc : Thread nD τ).loc main_arg4)))) (a1 (RV m c main_v15))
      (fun e => RV m c main_v36 (ix2 e 0)) (fun e => RV m c main_v28 (ix2 e 0)) (fun e => RV m c main_v42 (ix2 e 0))
      (a1 (m ((c.tc : Thread nD τ).loc main_arg5))) hd htgt v q).symm

theorem ref_h2K_of
    (hd : ∀ v : Fin 100000, ∃ x : ℝ, 0 ≤ x ∧ RV m c main_v15 (ix1 v) = (x : EReal))
    (htgt : ∀ (e : Fin 1700000) (v : Fin 100000), BitVec.toInt (RV m c main_v42 (ix2 e 0)) = (v.val : Int) →
      Cert.Spec.gidx 100000 (RV m c main_v28 (ix2 e 0)) = v.val)
    (v : Fin 100000) (q : Fin 128) :
    RV m c main_v99 (ix2 v q)
      = Cert.Spec.layerK RefLayer.hN (Cert.Spec.mm (a2 (RV m c main_v51)) (a2 (m ((c.tc : Thread nD τ).loc main_arg6)))) (a1 (RV m c main_v15))
          (fun e => RV m c main_v36 (ix2 e 0)) (fun e => RV m c main_v42 (ix2 e 0)) (a1 (m ((c.tc : Thread nD τ).loc main_arg7))) v q :=
  (ref_h2 m c v q).trans
    (Cert.Spec.layer_law RefLayer.hN (Cert.Spec.mm (a2 (RV m c main_v51)) (a2 (m ((c.tc : Thread nD τ).loc main_arg6)))) (a1 (RV m c main_v15))
      (fun e => RV m c main_v36 (ix2 e 0)) (fun e => RV m c main_v28 (ix2 e 0)) (fun e => RV m c main_v42 (ix2 e 0))
      (a1 (m ((c.tc : Thread nD τ).loc main_arg7))) hd htgt v q).symm

theorem ref_h1K (v : Fin 100000) (q : Fin 128) :
    RV m c main_v51 (ix2 v q)
      = Cert.Spec.layerK RefLayer.hN (Cert.Spec.mm (a2 (m ((c.tc : Thread nD τ).loc main_arg0))) (a2 (m ((c.tc : Thread nD τ).loc main_arg4)))) (a1 (RV m c main_v15))
          (fun e => RV m c main_v36 (ix2 e 0)) (fun e => RV m c main_v42 (ix2 e 0)) (a1 (m ((c.tc : Thread nD τ).loc main_arg5))) v q :=
  ref_h1K_of m c (ref_dinv_real m c) (ref_tgt_col m c) v q

theorem ref_h2K (v : Fin 100000) (q : Fin 128) :
    RV m c main_v99 (ix2 v q)
      = Cert.Spec.layerK RefLayer.hN (Cert.Spec.mm (a2 (RV m c main_v51)) (a2 (m ((c.tc : Thread nD τ).loc main_arg6)))) (a1 (RV m c main_v15))
          (fun e => RV m c main_v36 (ix2 e 0)) (fun e => RV m c main_v42 (ix2 e 0)) (a1 (m ((c.tc : Thread nD τ).loc main_arg7))) v q :=
  ref_h2K_of m c (ref_dinv_real m c) (ref_tgt_col m c) v q

end Cert.ReferenceIdeal.RefValue

end
-- ==== Proof.KI.Host0.lean ====
import proofs.«431255_j67791763800785_3_alg».proof.Proof.KI.Run
import Idealize.ShloMosaic.Lib.Pipeline.Value
import Idealize.ShloMosaic.Lib.ValueIdx
import Idealize.ShloMosaic.Lib.ValueIdxCoords
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL.Sem

variable (m : (ℓ : Loc nD τ sig) → Buf (Elt Ideal) ℓ)

def kSrcRaw (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def kDst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

def kDeg (ei : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (kDst ei))
    (broadcastInDim S1700000 ![] bcast_S_S1700000 (constant (F := Ideal) S_ .f32 0x3F800000#32))

def kDinv (ei : IVec S2x1600000 32) : FVec Ideal S100000 .f32 :=
  select (cmpf .ogt (kDeg ei) (broadcastInDim S100000 ![] bcast_S_S100000 (constant (F := Ideal) S_ .f32 0x00000000#32)))
    (Host.rsqrt (kDeg ei))
    (broadcastInDim S100000 ![] bcast_S_S100000 (constant (F := Ideal) S_ .f32 0x00000000#32))

theorem e3_v5 (c : Dev nD) : e3 m c main_v5 = kSrcRaw (m ((c : Thread nD τ).loc main_arg1)) := by
  show Gen.V3 m c _ = _
  rw [Gen.V3_of m c main_v5 (by decide), Gen.V2_of m c main_v5 (by decide)]
  show StableHlo.after hostOps0 (Gen.V0 m c) (Proc.devRef .tc main_v5) = _
  after_results
  rfl

theorem e3_v6 (c : Dev nD) : e3 m c main_v6 = kDst (m ((c : Thread nD τ).loc main_arg1)) := by
  show Gen.V3 m c _ = _
  rw [Gen.V3_of m c main_v6 (by decide), Gen.V2_of m c main_v6 (by decide)]
  show StableHlo.after hostOps0 (Gen.V0 m c) (Proc.devRef .tc main_v6) = _
  after_results
  rfl

theorem where_v14 (W : Valuation τ sig (Elt Ideal)) :
    StableHlo.after hostOps0_1 W (Proc.devRef .tc main_v14)
      = select (W (Proc.devRef .tc main_v12)) (W (Proc.devRef .tc main_v13)) (broadcastInDim S100000 ![] bcast_S_S100000 (W (Proc.devRef .tc main_cst_2))) := by
  after_results
  simp only [TRef.ofBuf, TRef.toBuf, cast_eq, id]

theorem V1_v12 (c : Dev nD) : Gen.V1 m c (Proc.devRef .tc main_v12)
    = cmpf .ogt (kDeg (m ((c : Thread nD τ).loc main_arg1))) (broadcastInDim S100000 ![] bcast_S_S100000 (constant (F := Ideal) S_ .f32 0x00000000#32)) := by
  show StableHlo.after hostOps0 (Gen.V0 m c) (Proc.devRef .tc main_v12) = _
  after_results
  rfl

theorem V1_v13 (c : Dev nD) : Gen.V1 m c (Proc.devRef .tc main_v13) = Host.rsqrt (kDeg (m ((c : Thread nD τ).loc main_arg1))) := by
  show StableHlo.after hostOps0 (Gen.V0 m c) (Proc.devRef .tc main_v13) = _
  after_results
  rfl

theorem V1_cst2 (c : Dev nD) : Gen.V1 m c (Proc.devRef .tc main_cst_2) = constant (F := Ideal) S_ .f32 0x00000000#32 := by
  show StableHlo.after hostOps0 (Gen.V0 m c) (Proc.devRef .tc main_cst_2) = _
  after_results

theorem e3_v14 (c : Dev nD) : e3 m c main_v14 = kDinv (m ((c : Thread nD τ).loc main_arg1)) := by
  show Gen.V3 m c _ = _
  rw [Gen.V3_of m c main_v14 (by decide)]
  show StableHlo.after hostOps0_1 (Gen.V1 m c) (Proc.devRef .tc main_v14) = _
  rw [where_v14, V1_v12, V1_v13, V1_cst2]
  rfl

end Cert.KernelIdeal.Hand

end
-- ==== Proof.KI.Host3.lean ====
import proofs.«431255_j67791763800785_3_alg».proof.Proof.KI.Run
import proofs.«431255_j67791763800785_3_alg».proof.Proof.KI.Host45
import proofs.«431255_j67791763800785_3_alg».proof.Proof.LibRowGatherScatter
import proofs.«431255_j67791763800785_3_alg».proof.Proof.Spec
import Idealize.ShloMosaic.Lib.StableHlo.Run
import Idealize.ShloMosaic.Lib.ValueIdx
import Idealize.ShloMosaic.Lib.ValueIdxCoords
import Idealize.ShloMosaic.Lib.ValueLayout
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

def kWrap' (w : IVec S1700000 32) : IVec S1700000 32 :=
  select (cmpi .slt w (broadcastInDim S1700000 ![] bcast_S_S1700000 (constantI S_ 32 0#32)))
    (addi w (broadcastInDim S1700000 ![] bcast_S_S1700000 (constantI S_ 32 100000#32))) w

section Stretch

variable (X : Valuation τ sig (Elt Ideal))

theorem host3_v35 : StableHlo.after (hostOps3 (F := Ideal)) X (Proc.devRef .tc main_v35) = kWrap' (X (Proc.devRef .tc main_v5)) := by
  after_results
  rfl

theorem host3_v42 (q : Fin 128) :
    (StableHlo.after (hostOps3 (F := Ideal)) X (Proc.devRef .tc main_v42) : S1x128.Idx → EReal) (ix2 0 q)
      = (X (Proc.devRef .tc main_arg7) : S128.Idx → EReal) (ix1 q) := by
  after_results
  exact shapeCast_a_1a_apply (X (Proc.devRef .tc main_arg7) : S128.Idx → EReal) shapeCasts_S128_S1x128 0 q

set_option maxHeartbeats 2000000 in
theorem host3_v41_raw :
    (StableHlo.after (hostOps3 (F := Ideal)) X (Proc.devRef .tc main_v41) : S100000x128.Idx → EReal)
      = Host.scatterAdd (F := Ideal) (φ := .f32) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (X (Proc.devRef .tc main_v6) : S1700000.Idx → BitVec 32))
          (extf (F := Ideal) (φ := .bf16) .f32 (Host.gather gather_S100000x128_S1700000x1_S1700000x128_1_0_n_n_0_1_1128 (X (Proc.devRef .tc main_v30) : S100000x128.Idx → EReal)
            (broadcastInDim S1700000x1 ![0] bcast_S1700000_S1700000x1_0 (kWrap' (X (Proc.devRef .tc main_v5))))) bitsLt_bf16_f32) := by
  after_results_simp
  rfl

theorem pass_row (x H : S100000x128.Idx → EReal) (idxd idxs : IVec S1700000x1 32) (v : Fin 100000) (q : Fin 128) :
    Host.scatterAdd (F := Ideal) (φ := .f32) scatter_S100000x128_S1700000x1_S1700000x128_1_0_0_1 x idxd
        (extf (F := Ideal) (φ := .bf16) .f32 (Host.gather gather_S100000x128_S1700000x1_S1700000x128_1_0_n_n_0_1_1128 H idxs) bitsLt_bf16_f32) (ix2 v q)
      = x (ix2 v q) + ∑ e : Fin 1700000, if (idxd (ix2 e 0)).toInt = (v.val : Int)
          then H (ix2 ⟨min (idxs (ix2 e 0)).toInt.toNat (100000 - 1), by omega⟩ q) else 0 := by
  have hext : extf (F := Ideal) (φ := .bf16) .f32 (Host.gather gather_S100000x128_S1700000x1_S1700000x128_1_0_n_n_0_1_1128 H idxs) bitsLt_bf16_f32
      = Host.gather gather_S100000x128_S1700000x1_S1700000x128_1_0_n_n_0_1_1128 H idxs := rfl
  rw [hext]
  exact Cert.Lib.RowPass.pass_apply _ _ (by decide) H x idxd idxs v q

theorem host3_v41 (v : Fin 100000) (q : Fin 128) :
    (StableHlo.after (hostOps3 (F := Ideal)) X (Proc.devRef .tc main_v41) : S100000x128.Idx → EReal) (ix2 v q)
      = Cert.Spec.aggK (by decide : 0 < 100000) (fun i q => (X (Proc.devRef .tc main_v30) : S100000x128.Idx → EReal) (ix2 i q))
          (fun e => (kWrap' (X (Proc.devRef .tc main_v5)) : S1700000.Idx → BitVec 32) (ix1 e))
          (fun e => (X (Proc.devRef .tc main_v6) : S1700000.Idx → BitVec 32) (ix1 e)) v q := by
  rw [host3_v41_raw, pass_row]
  unfold Cert.Spec.aggK
  have h0 : broadcastInDim S100000x128 ![] bcast_S_S100000x128 (constant (F := Ideal) S_ .f32 0x00000000#32) (ix2 v q) = (0 : EReal) :=
    IdealRules.sign_bit.ideal_zero .f32
  rw [h0]
  refine congrArg (fun s : EReal => 0 + s) (Finset.sum_congr rfl fun e _ => ?_)
  · have hd : broadcastInDim S1700000x1 ![0] bcast_S1700000_S1700000x1_0 (X (Proc.devRef .tc main_v6) : S1700000.Idx → BitVec 32) (ix2 e 0)
        = (X (Proc.devRef .tc main_v6) : S1700000.Idx → BitVec 32) (ix1 e) :=
      broadcastInDim_apply _ _ _ _ _ (fun a => by match a with | ⟨0, _⟩ => rfl)
    have hs : broadcastInDim S1700000x1 ![0] bcast_S1700000_S1700000x1_0 (kWrap' (X (Proc.devRef .tc main_v5))) (ix2 e 0)
        = kWrap' (X (Proc.devRef .tc main_v5)) (ix1 e) :=
      broadcastInDim_apply _ _ _ _ _ (fun a => by match a with | ⟨0, _⟩ => rfl)
    rw [hd]
    refine if_congr Iff.rfl ?_ rfl
    refine congrArg (fun r : Fin 100000 => (X (Proc.devRef .tc main_v30) : S100000x128.Idx → EReal) (ix2 r q)) (Fin.ext ?_)
    show min (broadcastInDim S1700000x1 ![0] bcast_S1700000_S1700000x1_0 (kWrap' (X (Proc.devRef .tc main_v5))) (ix2 e 0)).toInt.toNat (100000 - 1)
      = Cert.Spec.gidx 100000 (kWrap' (X (Proc.devRef .tc main_v5)) (ix1 e))
    rw [hs]
    rfl

end Stretch

variable (m : (ℓ : Loc nD τ sig) → Buf (Elt Ideal) ℓ)

theorem x6_v15 (c : Dev nD) : x6 m c main_v15 = e3 m c main_v15 := by
  rw [x6_of m c main_v15 (by decide), e5_of m c main_v15 (by decide), x4_of m c main_v15 (by decide)]
theorem x6_v29 (c : Dev nD) : x6 m c main_v29 = o6 m c := Function.update_self _ _ _
theorem x7_v30 (c : Dev nD) : x7 m c main_v30 = o7 m c := Function.update_self _ _ _
theorem x6_arg6 (c : Dev nD) : x6 m c main_arg6 = m ((c.tc : Thread nD τ).loc main_arg6) :=
  x6_args m c main_arg6 (by decide)
theorem x7_v5 (c : Dev nD) : x7 m c main_v5 = e3 m c main_v5 := by
  rw [x7_of m c main_v5 (by decide), x6_of m c main_v5 (by decide),
    e5_of m c main_v5 (by decide), x4_of m c main_v5 (by decide)]
theorem x7_v6 (c : Dev nD) : x7 m c main_v6 = e3 m c main_v6 := by
  rw [x7_of m c main_v6 (by decide), x6_of m c main_v6 (by decide),
    e5_of m c main_v6 (by decide), x4_of m c main_v6 (by decide)]
theorem e8_v15 (c : Dev nD) : e8 m c main_v15 = e3 m c main_v15 := by
  rw [e8_of m c main_v15 (by decide), x7_of m c main_v15 (by decide), x6_v15]
theorem x7_arg7 (c : Dev nD) : x7 m c main_arg7 = m ((c.tc : Thread nD τ).loc main_arg7) :=
  x7_args m c main_arg7 (by decide)

theorem e8_v35 (c : Dev nD) : e8 m c main_v35 = kWrap' (e3 m c main_v5) := by
  rw [← x7_v5 m c]
  exact host3_v35 (x7 m c)

theorem e8_v41 (c : Dev nD) (v : Fin 100000) (q : Fin 128) :
    e8 m c main_v41 (ix2 v q)
      = Cert.Spec.aggK (by decide : 0 < 100000) (fun i q => x7 m c main_v30 (ix2 i q))
          (fun e => e8 m c main_v35 (ix1 e)) (fun e => e3 m c main_v6 (ix1 e)) v q := by
  rw [e8_v35, ← x7_v5 m c, ← x7_v6 m c]
  exact host3_v41 (x7 m c) v q

theorem e8_v42 (c : Dev nD) (q : Fin 128) :
    e8 m c main_v42 (ix2 0 q) = m ((c.tc : Thread nD τ).loc main_arg7) (ix1 q) := by
  rw [← x7_arg7 m c]
  exact host3_v42 (x7 m c) q

end Cert.KernelIdeal.Hand

end
-- ==== Proof.KI.Host1.lean ====
import proofs.«431255_j67791763800785_3_alg».proof.Proof.KI.Host0
import proofs.«431255_j67791763800785_3_alg».proof.Proof.KI.Host3
import proofs.«431255_j67791763800785_3_alg».proof.Proof.Spec
import proofs.«431255_j67791763800785_3_alg».proof.Proof.LibRowGatherScatter
import proofs.«431255_j67791763800785_3_alg».proof.Proof.LibVecGatherScatter
import Idealize.ShloMosaic.Lib.Pipeline.Value
import Idealize.ShloMosaic.Lib.ValueIdx
import Idealize.ShloMosaic.Lib.ValueIdxCoords
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL.Sem

variable (m : (ℓ : Loc nD τ sig) → Buf (Elt Ideal) ℓ)

def kWrap (w : IVec S1700000 32) : IVec S1700000 32 :=
  select (cmpi .slt w (broadcastInDim S1700000 ![] bcast_S_S1700000 (constantI S_ 32 0#32)))
    (addi w (broadcastInDim S1700000 ![] bcast_S_S1700000 (constantI S_ 32 100000#32))) w

theorem host1_v21 (W : Valuation τ sig (Elt Ideal)) :
    StableHlo.after hostOps1 W (Proc.devRef .tc main_v21) = kWrap (W (Proc.devRef .tc main_v5)) := by
  after_results
  rfl

theorem host1_v27 (W : Valuation τ sig (Elt Ideal)) :
    StableHlo.after hostOps1 W (Proc.devRef .tc main_v27)
      = Host.scatterAdd scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W (Proc.devRef .tc main_v6)))
          (extf .f32 (Host.gather gather_S100000x128_S1700000x1_S1700000x128_1_0_n_n_0_1_1128 (W (Proc.devRef .tc main_v16))
            (broadcastInDim S1700000x1 ![0] bcast_S1700000_S1700000x1_0 (kWrap (W (Proc.devRef .tc main_v5))))) bitsLt_bf16_f32) := by
  after_results
  rfl

theorem idxCol_apply (a : IVec S1700000 32) (e : Fin 1700000) :
    broadcastInDim S1700000x1 ![0] bcast_S1700000_S1700000x1_0 a (ix2 e 0) = a (ix1 e) :=
  broadcastInDim_apply _ _ _ _ _ (fun r => by match r with | ⟨0, _⟩ => rfl)

theorem rowAgg_apply (H : S100000x128.Idx → EReal) (src dst : IVec S1700000 32) (v : Fin 100000) (q : Fin 128) :
    Host.scatterAdd (F := Ideal) (φ := .f32) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dst)
        (extf (F := Ideal) (φ := .bf16) .f32 (Host.gather gather_S100000x128_S1700000x1_S1700000x128_1_0_n_n_0_1_1128 H
          (broadcastInDim S1700000x1 ![0] bcast_S1700000_S1700000x1_0 src)) bitsLt_bf16_f32) (ix2 v q)
      = Cert.Spec.aggK (by decide : 0 < 100000) (fun i q => H (ix2 i q)) (fun e => src (ix1 e)) (fun e => dst (ix1 e)) v q := by
  rw [pass_row]
  unfold Cert.Spec.aggK
  have h0 : broadcastInDim S100000x128 ![] bcast_S_S100000x128 (constant (F := Ideal) S_ .f32 0x00000000#32) (ix2 v q) = (0 : EReal) :=
    Ideal.ofBits_zero_f32
  rw [h0]
  refine congrArg (fun s : EReal => 0 + s) (Finset.sum_congr rfl fun e _ => ?_)
  rw [idxCol_apply dst e]
  refine if_congr Iff.rfl ?_ rfl
  refine congrArg (fun r : Fin 100000 => H (ix2 r q)) (Fin.ext ?_)
  show min (broadcastInDim S1700000x1 ![0] bcast_S1700000_S1700000x1_0 src (ix2 e 0)).toInt.toNat (100000 - 1) = Cert.Spec.gidx 100000 (src (ix1 e))
  rw [idxCol_apply src e]
  rfl

theorem host1_v28 (W : Valuation τ sig (Elt Ideal)) (q : Fin 128) :
    (StableHlo.after hostOps1 W (Proc.devRef .tc main_v28) : S1x128.Idx → EReal) (ix2 0 q)
      = (W (Proc.devRef .tc main_arg5) : S128.Idx → EReal) (ix1 q) := by
  after_results
  show shapeCast S1x128 (W (Proc.devRef .tc main_arg5) : S128.Idx → EReal) shapeCasts_S128_S1x128 (ix2 0 q) = _
  refine shapeCast_apply _ _ _ _ ?_
  show (S128.rowMajor (ix1 q)).val = (S1x128.rowMajor (ix2 0 q)).val
  rw [Shape.rowMajor_val_one, Shape.rowMajor_val_two]
  show q.val = 0 * 128 + q.val
  omega

theorem x4_v5 (c : Dev nD) : x4 m c main_v5 = e3 m c main_v5 := Function.update_of_ne (StableHlo.devRef_ne_of_ne (by decide)) _ _
theorem x4_v6 (c : Dev nD) : x4 m c main_v6 = e3 m c main_v6 := Function.update_of_ne (StableHlo.devRef_ne_of_ne (by decide)) _ _
theorem x4_v15 (c : Dev nD) : x4 m c main_v15 = e3 m c main_v15 := Function.update_of_ne (StableHlo.devRef_ne_of_ne (by decide)) _ _

theorem x4_v16 (c : Dev nD) : x4 m c main_v16 = o4 m c := Function.update_self _ _ _
theorem e5_v15 (c : Dev nD) : e5 m c main_v15 = e3 m c main_v15 :=
  (StableHlo.after_of_writes_sub hostOps1 _ Gen.hostOps1_writes (by decide)).trans (x4_v15 m c)
theorem e5_v21 (c : Dev nD) : e5 m c main_v21 = kWrap (e3 m c main_v5) := by
  show StableHlo.after hostOps1 (x4 m c) (Proc.devRef .tc main_v21) = _
  rw [host1_v21]
  show kWrap (x4 m c main_v5) = _
  rw [x4_v5]

theorem e5_v28 (c : Dev nD) (q : Fin 128) :
    (e5 m c main_v28 : S1x128.Idx → EReal) (ix2 0 q) = (m ((c : Thread nD τ).loc main_arg5) : S128.Idx → EReal) (ix1 q) := by
  show (StableHlo.after hostOps1 (x4 m c) (Proc.devRef .tc main_v28) : S1x128.Idx → EReal) (ix2 0 q) = _
  rw [host1_v28]
  show (x4 m c main_arg5 : S128.Idx → EReal) (ix1 q) = _
  rw [show x4 m c main_arg5 = e3 m c main_arg5 from Function.update_of_ne (StableHlo.devRef_ne_of_ne (by decide)) _ _]
  show (Gen.V3 m c main_arg5 : S128.Idx → EReal) (ix1 q) = _
  rw [Gen.V3_of m c main_arg5 (by decide), Gen.V2_of m c main_arg5 (by decide), Gen.V1_of m c main_arg5 (by decide)]

theorem e5_v27 (c : Dev nD) (v : Fin 100000) (q : Fin 128) :
    (e5 m c main_v27 : S100000x128.Idx → EReal) (ix2 v q)
      = Cert.Spec.aggK (by decide : 0 < 100000) (fun i q => (x4 m c main_v16 : S100000x128.Idx → EReal) (ix2 i q))
          (fun e => (e5 m c main_v21 : S1700000.Idx → BitVec 32) (ix1 e)) (fun e => (e3 m c main_v6 : S1700000.Idx → BitVec 32) (ix1 e)) v q := by
  show (StableHlo.after hostOps1 (x4 m c) (Proc.devRef .tc main_v27) : S100000x128.Idx → EReal) (ix2 v q) = _
  rw [host1_v27, rowAgg_apply, e5_v21, x4_v5, x4_v6]

end Cert.KernelIdeal.Hand

end
-- ==== Proof.Cross.lean ====
import proofs.«431255_j67791763800785_3_alg».proof.Proof.KI.Host1
import proofs.«431255_j67791763800785_3_alg».proof.Proof.RefStages
import proofs.«431255_j67791763800785_3_alg».proof.Proof.RefFacts

noncomputable section

namespace Cert.Bridge

open Idealize.ShloMosaic Idealize.ShloMosaic.TcCoe Idealize.SL.Sem Idealize.ShloMosaic.StableHlo Idealize.ShloMosaic.ValueIdx

section Reference

open Cert.ReferenceIdeal Cert.ReferenceIdeal.Gen Cert.ReferenceIdeal.RefValue

def rSrc (ei : IVec S2x1600000 32) : IVec S1700000 32 :=
  withLoops (shapeCast S1600000 (extractStridedSlice S1x1600000 ![0, 0] ei slices_S2x1600000_S1x1600000_0_0) shapeCasts_S1x1600000_S1600000)

def rDst (ei : IVec S2x1600000 32) : IVec S1700000 32 :=
  withLoops (shapeCast S1600000 (extractStridedSlice S1x1600000 ![1, 0] ei slices_S2x1600000_S1x1600000_1_0) shapeCasts_S1x1600000_S1600000)

variable (m' : (ℓ : Loc nD τ sig) → Buf (Elt Ideal) ℓ) (c : Dev nD)

theorem R_v1 : RV m' c main_v1 = shapeCast S1600000 (extractStridedSlice S1x1600000 ![0, 0] (RV m' c main_arg1) slices_S2x1600000_S1x1600000_0_0) shapeCasts_S1x1600000_S1600000 := by
  rw [RV_at m' c 4 main_v1, RV_at m' c 0 main_arg1, L_step m' c 0 4]
  simp only [RunP.ops, List.take, List.drop]
  after_results <;> rfl

theorem R_v3 : RV m' c main_v3 = shapeCast S1600000 (extractStridedSlice S1x1600000 ![1, 0] (RV m' c main_arg1) slices_S2x1600000_S1x1600000_1_0) shapeCasts_S1x1600000_S1600000 := by
  rw [RV_at m' c 4 main_v3, RV_at m' c 0 main_arg1, L_step m' c 0 4]
  simp only [RunP.ops, List.take, List.drop]
  after_results <;> rfl

theorem R_v6 : RV m' c main_v6 = rSrc (m' ((c.tc : Thread nD τ).loc main_arg1)) := by
  rw [E_v6, R_v1, RV_arg1]; rfl

theorem R_v7 : RV m' c main_v7 = rDst (m' ((c.tc : Thread nD τ).loc main_arg1)) := by
  rw [E_v7, R_v3, RV_arg1]; rfl

theorem R_v15 : RV m' c main_v15 = dinvOf (F := Ideal) (degOf (colM (rDst (m' ((c.tc : Thread nD τ).loc main_arg1))))) := by
  rw [E_v15, E_v11, R_v7]

theorem R_v20 : RV m' c main_v20 = wrapIdx (rSrc (m' ((c.tc : Thread nD τ).loc main_arg1))) := by
  rw [E_v20, R_v6]

end Reference

section Terms

open Cert.KernelIdeal

theorem kSrcRaw_eq (ei : IVec S2x1600000 32) : Cert.KernelIdeal.Hand.kSrcRaw ei = rSrc ei := rfl
theorem kDst_eq (ei : IVec S2x1600000 32) : Cert.KernelIdeal.Hand.kDst ei = rDst ei := rfl
theorem kDinv_eq (ei : IVec S2x1600000 32) :
    Cert.KernelIdeal.Hand.kDinv ei = Cert.ReferenceIdeal.RefValue.dinvOf (F := Ideal) (Cert.ReferenceIdeal.RefValue.degOf (Cert.ReferenceIdeal.RefValue.colM (rDst ei))) := rfl
theorem kWrap_eq' (w : IVec S1700000 32) : Cert.KernelIdeal.Hand.kWrap w = Cert.ReferenceIdeal.RefValue.wrapIdx w := rfl
theorem kWrap'_eq (w : IVec S1700000 32) : Cert.KernelIdeal.Hand.kWrap' w = Cert.ReferenceIdeal.RefValue.wrapIdx w := rfl

end Terms

section Cross

open Cert.KernelIdeal.Hand Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (h1 : ∀ c : Dev Cert.KernelIdeal.nD,
    m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
  (c : Dev Cert.KernelIdeal.nD)

include h1

theorem cross_dinv_arr : e3 m c Cert.KernelIdeal.main_v14 = RV m' c Cert.ReferenceIdeal.main_v15 := by
  rw [e3_v14, R_v15, h1 c]; exact kDinv_eq _

theorem cross_dst_arr : e3 m c Cert.KernelIdeal.main_v6 = RV m' c Cert.ReferenceIdeal.main_v7 := by
  rw [e3_v6, R_v7, h1 c]; exact kDst_eq _

theorem cross_src_arr : e5 m c Cert.KernelIdeal.main_v21 = RV m' c Cert.ReferenceIdeal.main_v20 := by
  rw [e5_v21, e3_v5, R_v20, h1 c, kWrap_eq']; exact congrArg _ (kSrcRaw_eq _)

omit h1 in

theorem cross_src2_arr : e8 m c Cert.KernelIdeal.main_v35 = e5 m c Cert.KernelIdeal.main_v21 := by
  rw [e8_v35, e5_v21, kWrap_eq', kWrap'_eq]

theorem cross_dinv : (fun i : Fin 100000 => e3 m c Cert.KernelIdeal.main_v14 (ix1 i))
    = (fun i : Fin 100000 => RV m' c Cert.ReferenceIdeal.main_v15 (ix1 i)) := by
  rw [cross_dinv_arr m m' h1 c]

theorem cross_src : (fun e : Fin 1700000 => e5 m c Cert.KernelIdeal.main_v21 (ix1 e))
    = (fun e : Fin 1700000 => RV m' c Cert.ReferenceIdeal.main_v36 (ix2 e (0 : Fin 1))) := by
  funext e
  rw [v36_apply, cross_src_arr m m' h1 c]

theorem cross_src2 : (fun e : Fin 1700000 => e8 m c Cert.KernelIdeal.main_v35 (ix1 e))
    = (fun e : Fin 1700000 => RV m' c Cert.ReferenceIdeal.main_v36 (ix2 e (0 : Fin 1))) := by
  rw [cross_src2_arr m c]
  exact cross_src m m' h1 c

theorem cross_dst : (fun e : Fin 1700000 => e3 m c Cert.KernelIdeal.main_v6 (ix1 e))
    = (fun e : Fin 1700000 => RV m' c Cert.ReferenceIdeal.main_v42 (ix2 e (0 : Fin 1))) := by
  funext e
  rw [v42_apply, cross_dst_arr m m' h1 c]

end Cross

end Cert.Bridge

end
-- ==== Proof.KI.Val2.lean ====
import proofs.«431255_j67791763800785_3_alg».proof.Proof.KI.Reg2
import proofs.«431255_j67791763800785_3_alg».proof.Proof.Spec
import proofs.«431255_j67791763800785_3_alg».proof.Proof.LibMatmul
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

theorem zoff2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem pay2_apply (x0 : Vec Ideal S5000x128 .f32) (x1 : Vec Ideal S128x128 .f32) (x2 : Vec Ideal S5000x1 .f32) (a : Fin 5000) (b : Fin 128) :
    k2_pay1 x0 x1 x2 (ix2 a b) = (∑ j : Fin 128, x0 (ix2 a j) * x1 (ix2 j b)) * x2 (ix2 a 0) := by
  unfold k2_pay1
  rw [truncf_apply, mulf_apply,
    show dot_S5000x128_S128x128_S5000x128_1_0_0_1_n_n = Cert.Lib.MatMul.mmD 5000 128 128 dot_S5000x128_S128x128_S5000x128_1_0_0_1_n_n_wf from rfl,
    Cert.Lib.MatMul.matmul_apply, constant_apply, Ideal.ofBits_zero_f32, zero_add]
  simp only [shapeCast_self, truncf_apply]
  rw [broadcastTo_apply x2 broadcasts_S5000x1_S5000x128 (ix2 a b) (ix2 a 0) (fun r => by match r with | ⟨0, _⟩ => rfl | ⟨1, _⟩ => rfl)]

section Blocks
variable {F : FTy → Type} [FloatOps F]
variable (V : (c : Dev nD) → (b : Ref sig .tc) → Buf (Elt F) ((c : Thread nD τ).loc b))

theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec F S5000x128 .f32) x = (V c main_v29 : S100000x128.Idx → Elt F .f32) k := by
  obtain ⟨e0, e1, -⟩ := idx_facts2 t
  unfold iblk2
  rw [View.read_apply]
  show V c main_v29 _ = V c main_v29 _
  congr 1
  funext a; apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

theorem iblk2_1_apply (c : Dev nD) (t : Fin cfg2.N) (x : S128x128.Idx) :
    (iblk2 V c 1 t : Vec F S128x128 .f32) x = (V c main_arg6 : S128x128.Idx → Elt F .f32) x := by
  obtain ⟨-, -, e0, e1, -⟩ := idx_facts2 t
  unfold iblk2
  rw [View.read_apply]
  show V c main_arg6 _ = V c main_arg6 _
  congr 1
  funext a; apply Fin.ext
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

theorem iblk2_2_apply (c : Dev nD) (t : Fin cfg2.N) (x : S5000x1.Idx) (k : S100000x1.Idx)
    (hk0 : (k 0).val = 5000 * t.val + (x 0).val) (hk1 : (k 1).val = (x 1).val) :
    (iblk2 V c 2 t : Vec F S5000x1 .f32) x = (V c main_v15 : S100000x1.Idx → Elt F .f32) k := by
  obtain ⟨-, -, -, -, e0, e1, -⟩ := idx_facts2 t
  unfold iblk2
  rw [View.read_apply]
  show V c main_v15 _ = V c main_v15 _
  congr 1
  funext a; apply Fin.ext
  match a with
  | ⟨0, _⟩ => show win2_2.index t (0 : Fin 2) * 5000 + 1 * (x 0).val = (k 0).val; rw [e0, hk0]; omega
  | ⟨1, _⟩ => show win2_2.index t (1 : Fin 2) * 1 + 1 * (x 1).val = (k 1).val; rw [e1, hk1]; omega

theorem mem_blk2_3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v30).slice (win2_3.rect t)).set ↔ _
  rw [View.set_slice_whole, Rect.mem_set_unit]
  exact Iff.rfl

theorem covered2_3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, e0, e1⟩ := idx_facts2 ⟨(i 0).val / 5000, ht⟩
  refine ⟨⟨(i 0).val / 5000, ht⟩, flush2_3 _, ?_⟩
  rw [mem_blk2_3]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e1]; omega

end Blocks

section AtIdeal
variable (V : (c : Dev nD) → (b : Ref sig .tc) → Buf (Elt Ideal) ((c : Thread nD τ).loc b))

def G2 (c : Dev nD) : S100000x128.Idx → Elt Ideal .bf16 := fun i =>
  Cert.Spec.mm (fun i j => V c main_v29 (ix2 i j)) (fun j k => V c main_arg6 (ix2 j k)) (i 0) (i 1) * V c main_v15 (ix2 (i 0) 0)

theorem flushed2_3_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero zoff2]
  simp only [View.ld_unit_zero (S := S5000x128) zoff2, View.ld_unit_zero (S := S128x128) zoff2, View.ld_unit_zero (S := S5000x1) zoff2]
  obtain ⟨-, -, -, -, -, -, e0, e1⟩ := idx_facts2 t
  funext y
  rw [View.read_apply]
  obtain ⟨a, b, rfl⟩ : ∃ (a : Fin 5000) (b : Fin 128), y = (ix2 a b : S5000x128.Idx) := ⟨y 0, y 1, eq_ix2 (n0 := 5000) (n1 := 128) y⟩
  show k2_pay1 (iblk2 V c 0 t) (iblk2 V c 1 t) (iblk2 V c 2 t) (ix2 a b) = G2 V c (((cfg2.win 3).blk t).view.emb (ix2 a b : S5000x128.Idx))
  rw [pay2_apply]
  have hE0 : ((((cfg2.win 3).blk t).view.emb (ix2 a b : S5000x128.Idx)) (0 : Fin 2)).val = 5000 * t.val + a.val := by
    show win2_3.index t (0 : Fin 2) * 5000 + 1 * a.val = _; rw [e0]; omega
  have hE1 : ((((cfg2.win 3).blk t).view.emb (ix2 a b : S5000x128.Idx)) (1 : Fin 2)).val = b.val := by
    show win2_3.index t (1 : Fin 2) * 128 + 1 * b.val = _; rw [e1]; omega
  generalize ((cfg2.win 3).blk t).view.emb (ix2 a b : S5000x128.Idx) = i' at hE0 hE1 ⊢
  have hb : (i' (1 : Fin 2) : Fin 128) = b := Fin.ext hE1
  unfold G2 Cert.Spec.mm
  rw [hb]
  congr 1
  · refine Finset.sum_congr rfl fun j _ => ?_
    rw [iblk2_0_apply V c t (ix2 a j) (ix2 (i' 0) j) hE0 rfl, iblk2_1_apply V c t (ix2 j b)]
  · exact iblk2_2_apply V c t (ix2 a 0) (ix2 (i' 0) 0) hE0 rfl

theorem final2_3 (c : Dev nD) : (dat2 V c).arrAt 3 cfg2.N = G2 V c :=
  (dat2 V c).arrAt_eq_of_cover 3 (G2 V c) (fun t _ => flushed2_3_eq V c t) covered2_3

theorem value2 (c : Dev nD) (i : Fin 100000) (k : Fin 128) :
    (dat2 (F := Ideal) V c).arrAt 3 cfg2.N (ix2 i k)
      = Cert.Spec.mm (fun i j => V c main_v29 (ix2 i j)) (fun j k => V c main_arg6 (ix2 j k)) i k * V c main_v15 (ix2 i 0) := by
  rw [final2_3]; rfl

end AtIdeal

end Cert.KernelIdeal.Hand

end
-- ==== Proof.KI.Val3.lean ====
import proofs.«431255_j67791763800785_3_alg».proof.Proof.KI.Reg3
import proofs.«431255_j67791763800785_3_alg».proof.Proof.Spec
import Idealize.ShloMosaic.Lib.Pipeline.Value
import Idealize.ShloMosaic.Lib.ValueIdx
import Idealize.ShloMosaic.Lib.ValueIdxCoords
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem pay3_apply (x0 : Vec Ideal S5000x128 .f32) (x1 : Vec Ideal S5000x1 .f32) (x2 : Vec Ideal S1x128 .f32) (j : S5000x128.Idx) :
    k3_pay1 x0 x1 x2 j = Cert.Spec.leaky (x0 j * x1 (ix2 (j 0) 0) + x2 (ix2 0 (j 1))) := by
  unfold k3_pay1
  simp only [shapeCast_self]
  have e1 : broadcastTo S5000x128 x1 broadcasts_S5000x1_S5000x128 j = x1 (ix2 (j 0) 0) :=
    broadcastTo_apply x1 _ j _ (fun a => by match a with | ⟨0, _⟩ => rfl | ⟨1, _⟩ => rfl)
  have e2 : broadcastTo S5000x128 x2 broadcasts_S1x128_S5000x128 j = x2 (ix2 0 (j 1)) :=
    broadcastTo_apply x2 _ j _ (fun a => by match a with | ⟨0, _⟩ => rfl | ⟨1, _⟩ => rfl)
  simp only [select, cmpf, addf, mulf, broadcast, e1, e2]
  change Scalar.select (Ideal.cmp .oge (x0 j * x1 (ix2 (j 0) 0) + x2 (ix2 0 (j 1))) (Ideal.ofBits .f32 0#32))
      (x0 j * x1 (ix2 (j 0) 0) + x2 (ix2 0 (j 1)))
      (Ideal.ofBits .f32 0x3C23D70A#32 * (x0 j * x1 (ix2 (j 0) 0) + x2 (ix2 0 (j 1)))) = _
  generalize x0 j * x1 (ix2 (j 0) 0) + x2 (ix2 0 (j 1)) = y
  unfold Cert.Spec.leaky Scalar.select Ideal.cmp
  rw [IdealRules.sign_bit.ideal_zero .f32]
  by_cases h : 0 ≤ y
  · rw [if_pos h]; simp only [h, decide_true, BitVec.ofBool_true, if_true]
  · rw [if_neg h]; simp only [h, decide_false, BitVec.ofBool_false]; rw [if_neg (by decide)]

variable (V : (c : Dev nD) → (b : Ref sig .tc) → Buf (Elt Ideal) ((c : Thread nD τ).loc b))

theorem zeros3 : (![0, 0] : Fin 2 → Nat) = fun _ => 0 := funext fun a => by fin_cases a <;> rfl

def P3 (a0 : S100000x128.Idx → EReal) (a1 : S100000x1.Idx → EReal) (a2 : S1x128.Idx → EReal)
    (p0 : S100000x128.Idx) (p1 : S100000x1.Idx) (p2 : S1x128.Idx) : EReal :=
  Cert.Spec.leaky (a0 p0 * a1 p1 + a2 p2)

def G3 (a0 : S100000x128.Idx → EReal) (a1 : S100000x1.Idx → EReal) (a2 : S1x128.Idx → EReal) : S100000x128.Idx → EReal :=
  fun i => P3 a0 a1 a2 i (ix2 (i 0) 0) (ix2 0 (i 1))

theorem G3_apply (a0 : S100000x128.Idx → EReal) (a1 : S100000x1.Idx → EReal) (a2 : S1x128.Idx → EReal) (i : Fin 100000) (k : Fin 128) :
    G3 a0 a1 a2 (ix2 i k) = Cert.Spec.leaky (a0 (ix2 i k) * a1 (ix2 i 0) + a2 (ix2 0 k)) := rfl

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem blk_idx3 (a0 : S100000x128.Idx → EReal) (a1 : S100000x1.Idx → EReal) (a2 : S1x128.Idx → EReal) (t : Fin cfg3.N) (j : S5000x128.Idx) :
    P3 a0 a1 a2 (((cfg3.win 0).blk t).view.emb j) (((cfg3.win 1).blk t).view.emb (ix2 (j 0) 0 : S5000x1.Idx))
        (((cfg3.win 2).blk t).view.emb (ix2 0 (j 1) : S1x128.Idx))
      = G3 a0 a1 a2 (((cfg3.win 3).blk t).view.emb j) := by
  obtain ⟨e0, e1, e2, e3, e4, e5, e6, e7⟩ := idx_facts3 t
  have hj0 : (j 0).val < 5000 := (j 0).isLt
  have hj1 : (j 1).val < 128 := (j 1).isLt
  have q0 : (((((cfg3.win 3).blk t).view.emb j : S100000x128.Idx)) 0).val = t.val * 5000 + (j 0).val := by
    show win3_3.index t (0 : Fin 2) * 5000 + 1 * (j 0).val = _; omega
  have q1 : (((((cfg3.win 3).blk t).view.emb j : S100000x128.Idx)) 1).val = (j 1).val := by
    show win3_3.index t (1 : Fin 2) * 128 + 1 * (j 1).val = _; omega
  have h0 : (((cfg3.win 0).blk t).view.emb j : S100000x128.Idx) = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  rw [h0]
  obtain ⟨p, hp⟩ : ∃ p : S100000x128.Idx, ((cfg3.win 3).blk t).view.emb j = p := ⟨_, rfl⟩
  rw [hp] at q0 q1 ⊢
  have h1 : @Eq S100000x1.Idx (((cfg3.win 1).blk t).view.emb (ix2 (j 0) 0 : S5000x1.Idx)) (ix2 (p 0) 0) := by
    funext a; apply Fin.ext
    match a with
    | ⟨0, _⟩ => show win3_1.index t (0 : Fin 2) * 5000 + 1 * (j 0).val = (p 0).val; omega
    | ⟨1, _⟩ => show win3_1.index t (1 : Fin 2) * 1 + 1 * 0 = 0; omega
  have h2 : @Eq S1x128.Idx (((cfg3.win 2).blk t).view.emb (ix2 0 (j 1) : S1x128.Idx)) (ix2 0 (p 1)) := by
    funext a; apply Fin.ext
    match a with
    | ⟨0, _⟩ => show win3_2.index t (0 : Fin 2) * 1 + 1 * 0 = 0; omega
    | ⟨1, _⟩ => show win3_2.index t (1 : Fin 2) * 128 + 1 * (j 1).val = (p 1).val; omega
  rw [h1, h2]
  rfl

theorem flushed3_3_eq (c : Dev nD) (t : Fin cfg3.N) :
    (dat3 V c).flushed 3 t = ((cfg3.win 3).blk t).view.read (Elt Ideal) (G3 (V c main_v41) (V c main_v15) (V c main_v42)) := by
  show (cfg3.win 3).cut (grid3.coords t) ((dat3 V c).after 3 t) = _
  rw [after3_3]
  unfold out3_3
  rw [View.canon_unit_zero zeros3]
  simp only [View.ld_unit_zero (S := S5000x128) zeros3, View.ld_unit_zero (S := S5000x1) zeros3, View.ld_unit_zero (S := S1x128) zeros3]
  funext j
  show k3_pay1 (iblk3 V c 0 t) (iblk3 V c 1 t) (iblk3 V c 2 t) j = G3 (V c main_v41) (V c main_v15) (V c main_v42) (((cfg3.win 3).blk t).view.emb j)
  rw [pay3_apply, ← blk_idx3]
  rfl

theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v43).slice (win3_3.rect t)).set ↔ _
  rw [View.set_slice_whole, Rect.mem_set_unit]
  exact Iff.rfl

theorem covered3_3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have ht : (i 0).val / 5000 < cfg3.N := by show (i 0).val / 5000 < 20; omega
  refine ⟨⟨(i 0).val / 5000, ht⟩, flush3_3 _, ?_⟩
  obtain ⟨e0, e1, e2, e3, e4, e5, e6, e7⟩ := idx_facts3 ⟨(i 0).val / 5000, ht⟩
  have e6' : win3_3.index ⟨(i 0).val / 5000, ht⟩ (0 : Fin 2) = (i 0).val / 5000 := e6
  rw [mem_blk3_3]
  intro a
  match a with
  | ⟨0, _⟩ => show win3_3.index ⟨(i 0).val / 5000, ht⟩ (0 : Fin 2) * 5000 ≤ (i 0).val ∧ (i 0).val < win3_3.index ⟨(i 0).val / 5000, ht⟩ (0 : Fin 2) * 5000 + 5000; omega
  | ⟨1, _⟩ => show win3_3.index ⟨(i 0).val / 5000, ht⟩ (1 : Fin 2) * 128 ≤ (i 1).val ∧ (i 1).val < win3_3.index ⟨(i 0).val / 5000, ht⟩ (1 : Fin 2) * 128 + 128; omega

theorem final3_3 (c : Dev nD) : (dat3 V c).arrAt 3 cfg3.N = G3 (V c main_v41) (V c main_v15) (V c main_v42) :=
  (dat3 V c).arrAt_eq_of_cover 3 (G3 (V c main_v41) (V c main_v15) (V c main_v42)) (fun t _ => flushed3_3_eq V c t) covered3_3

theorem val3 (c : Dev nD) (i : Fin 100000) (k : Fin 128) :
    (dat3 (F := Ideal) V c).arrAt 3 cfg3.N (ix2 i k) = G3 (V c main_v41) (V c main_v15) (V c main_v42) (ix2 i k) := by
  rw [final3_3]

end Cert.KernelIdeal.Hand

end
-- ==== Proof.KI.Chain2.lean ====
import proofs.«431255_j67791763800785_3_alg».proof.Proof.KI.Run
import proofs.«431255_j67791763800785_3_alg».proof.Proof.KI.Host45
import proofs.«431255_j67791763800785_3_alg».proof.Proof.KI.Host3
import proofs.«431255_j67791763800785_3_alg».proof.Proof.KI.Val2
import proofs.«431255_j67791763800785_3_alg».proof.Proof.KI.Val3
import proofs.«431255_j67791763800785_3_alg».proof.Proof.Spec
import Idealize.ShloMosaic.Lib.StableHlo.Run
import Idealize.ShloMosaic.Lib.ValueIdx
import Idealize.ShloMosaic.Lib.ValueIdxCoords
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem host02_v15 (X : Valuation τ sig (Elt Ideal)) (i : Fin 100000) :
    (StableHlo.after (hostOps0_2 (F := Ideal)) X (Proc.devRef .tc main_v15) : S100000x1.Idx → EReal) (ix2 i 0)
      = (X (Proc.devRef .tc main_v14) : S100000.Idx → EReal) (ix1 i) := by
  after_results
  exact shapeCast_a_a1_apply (X (Proc.devRef .tc main_v14) : S100000.Idx → EReal) shapeCasts_S100000_S100000x1 i 0

theorem e3_v15_row (c : Dev nD) (i : Fin 100000) : e3 m c main_v15 (ix2 i 0) = e3 m c main_v14 (ix1 i) := by
  have h14 : e3 m c main_v14 = Gen.V2 m c main_v14 := Gen.V3_of m c main_v14 (by decide)
  rw [h14]
  exact host02_v15 (Gen.V2 m c) i

theorem x7_v30_apply (c : Dev nD) (i : Fin 100000) (q : Fin 128) :
    x7 m c main_v30 (ix2 i q)
      = Cert.Spec.mm (fun i j => x6 m c main_v29 (ix2 i j)) (fun j k => m ((c.tc : Thread nD τ).loc main_arg6) (ix2 j k)) i q
        * e3 m c main_v14 (ix1 i) := by
  rw [x7_v30]
  unfold o7
  rw [value2 (tv (x6 m)) c i q]
  have e6 : tv (x6 m) c main_arg6 = m ((c.tc : Thread nD τ).loc main_arg6) := x6_arg6 m c
  have e15 : tv (x6 m) c main_v15 (ix2 i 0) = e3 m c main_v14 (ix1 i) := by
    show x6 m c main_v15 (ix2 i 0) = _
    rw [x6_v15]
    exact e3_v15_row m c i
  rw [e6, e15]

theorem chain_h2 (c : Dev nD) (v : Fin 100000) (q : Fin 128) :
    x9 m c main_v43 (ix2 v q) = Cert.Spec.layerK (by decide : 0 < 100000)
      (Cert.Spec.mm (fun i j => x6 m c main_v29 (ix2 i j)) (fun j k => m ((c.tc : Thread nD τ).loc main_arg6) (ix2 j k)))
      (fun i => e3 m c main_v14 (ix1 i)) (fun e => e8 m c main_v35 (ix1 e)) (fun e => e3 m c main_v6 (ix1 e))
      (fun k => m ((c.tc : Thread nD τ).loc main_arg7) (ix1 k)) v q := by
  have h43 : x9 m c main_v43 = o9 m c := Function.update_self _ _ _
  rw [h43]
  unfold o9
  have hval := val3 (tv (e8 m)) c v q
  rw [G3_apply] at hval
  rw [hval]
  have h41 : tv (e8 m) c main_v41 (ix2 v q) = _ := e8_v41 m c v q
  have h15 : tv (e8 m) c main_v15 (ix2 v 0) = e3 m c main_v14 (ix1 v) := by
    show e8 m c main_v15 (ix2 v 0) = _
    rw [e8_v15]
    exact e3_v15_row m c v
  have h42 : tv (e8 m) c main_v42 (ix2 0 q) = m ((c.tc : Thread nD τ).loc main_arg7) (ix1 q) := e8_v42 m c q
  rw [h41, h15, h42]
  unfold Cert.Spec.layerK
  have h30 : (fun (i : Fin 100000) (q : Fin 128) => x7 m c main_v30 (ix2 i q))
      = fun i q => Cert.Spec.mm (fun i j => x6 m c main_v29 (ix2 i j)) (fun j k => m ((c.tc : Thread nD τ).loc main_arg6) (ix2 j k)) i q
          * e3 m c main_v14 (ix1 i) := by
    funext i q
    exact x7_v30_apply m c i q
  rw [h30]

end Cert.KernelIdeal.Hand

end
-- ==== Proof.KI.Val0.lean ====
import proofs.«431255_j67791763800785_3_alg».proof.Proof.KI.Reg0
import proofs.«431255_j67791763800785_3_alg».proof.Proof.Spec
import proofs.«431255_j67791763800785_3_alg».proof.Proof.LibMatmul
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

theorem zoff0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem pay0_apply (x0 : Vec Ideal S5000x64 .f32) (x1 : Vec Ideal S64x128 .f32) (x2 : Vec Ideal S5000x1 .f32) (a : Fin 5000) (b : Fin 128) :
    k0_pay1 x0 x1 x2 (ix2 a b) = (∑ j : Fin 64, x0 (ix2 a j) * x1 (ix2 j b)) * x2 (ix2 a 0) := by
  unfold k0_pay1
  rw [truncf_apply, mulf_apply,
    show dot_S5000x64_S64x128_S5000x128_1_0_0_1_n_n = Cert.Lib.MatMul.mmD 5000 64 128 dot_S5000x64_S64x128_S5000x128_1_0_0_1_n_n_wf from rfl,
    Cert.Lib.MatMul.matmul_apply, constant_apply, Ideal.ofBits_zero_f32, zero_add]
  simp only [shapeCast_self, truncf_apply]
  rw [broadcastTo_apply x2 broadcasts_S5000x1_S5000x128 (ix2 a b) (ix2 a 0) (fun r => by match r with | ⟨0, _⟩ => rfl | ⟨1, _⟩ => rfl)]

section Blocks
variable {F : FTy → Type} [FloatOps F]
variable (V : (c : Dev nD) → (b : Ref sig .tc) → Buf (Elt F) ((c : Thread nD τ).loc b))

theorem iblk0_0_apply (c : Dev nD) (t : Fin cfg0.N) (x : S5000x64.Idx) (k : S100000x64.Idx)
    (hk0 : (k 0).val = 5000 * t.val + (x 0).val) (hk1 : (k 1).val = (x 1).val) :
    (iblk0 V c 0 t : Vec F S5000x64 .f32) x = (V c main_arg0 : S100000x64.Idx → Elt F .f32) k := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

theorem iblk0_1_apply (c : Dev nD) (t : Fin cfg0.N) (x : S64x128.Idx) :
    (iblk0 V c 1 t : Vec F S64x128 .f32) x = (V c main_arg4 : S64x128.Idx → Elt F .f32) x := by
  obtain ⟨-, -, e0, e1, -⟩ := idx_facts0 t
  unfold iblk0
  rw [View.read_apply]
  show V c main_arg4 _ = V c main_arg4 _
  congr 1
  funext a; apply Fin.ext
  match a with
  | ⟨0, _⟩ => show win0_1.index t (0 : Fin 2) * 64 + 1 * (x 0).val = (x 0).val; rw [e0]; omega
  | ⟨1, _⟩ => show win0_1.index t (1 : Fin 2) * 128 + 1 * (x 1).val = (x 1).val; rw [e1]; omega

theorem iblk0_2_apply (c : Dev nD) (t : Fin cfg0.N) (x : S5000x1.Idx) (k : S100000x1.Idx)
    (hk0 : (k 0).val = 5000 * t.val + (x 0).val) (hk1 : (k 1).val = (x 1).val) :
    (iblk0 V c 2 t : Vec F S5000x1 .f32) x = (V c main_v15 : S100000x1.Idx → Elt F .f32) k := by
  obtain ⟨-, -, -, -, e0, e1, -⟩ := idx_facts0 t
  unfold iblk0
  rw [View.read_apply]
  show V c main_v15 _ = V c main_v15 _
  congr 1
  funext a; apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

theorem covered0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e0, e1⟩ := idx_facts0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

end Blocks

section AtIdeal
variable (V : (c : Dev nD) → (b : Ref sig .tc) → Buf (Elt Ideal) ((c : Thread nD τ).loc b))

def G0 (c : Dev nD) : S100000x128.Idx → Elt Ideal .bf16 := fun i =>
  Cert.Spec.mm (fun i j => V c main_arg0 (ix2 i j)) (fun j k => V c main_arg4 (ix2 j k)) (i 0) (i 1) * V c main_v15 (ix2 (i 0) 0)

theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zoff0]
  simp only [View.ld_unit_zero (S := S5000x64) zoff0, View.ld_unit_zero (S := S64x128) zoff0, View.ld_unit_zero (S := S5000x1) zoff0]
  obtain ⟨-, -, -, -, -, -, e0, e1⟩ := idx_facts0 t
  funext y
  rw [View.read_apply]
  obtain ⟨a, b, rfl⟩ : ∃ (a : Fin 5000) (b : Fin 128), y = (ix2 a b : S5000x128.Idx) := ⟨y 0, y 1, eq_ix2 (n0 := 5000) (n1 := 128) y⟩
  show k0_pay1 (iblk0 V c 0 t) (iblk0 V c 1 t) (iblk0 V c 2 t) (ix2 a b) = G0 V c (((cfg0.win 3).blk t).view.emb (ix2 a b : S5000x128.Idx))
  rw [pay0_apply]
  have hE0 : ((((cfg0.win 3).blk t).view.emb (ix2 a b : S5000x128.Idx)) (0 : Fin 2)).val = 5000 * t.val + a.val := by
    show win0_3.index t (0 : Fin 2) * 5000 + 1 * a.val = _; rw [e0]; omega
  have hE1 : ((((cfg0.win 3).blk t).view.emb (ix2 a b : S5000x128.Idx)) (1 : Fin 2)).val = b.val := by
    show win0_3.index t (1 : Fin 2) * 128 + 1 * b.val = _; rw [e1]; omega
  generalize ((cfg0.win 3).blk t).view.emb (ix2 a b : S5000x128.Idx) = i' at hE0 hE1 ⊢
  have hb : (i' (1 : Fin 2) : Fin 128) = b := Fin.ext hE1
  unfold G0 Cert.Spec.mm
  rw [hb]
  congr 1
  · refine Finset.sum_congr rfl fun j _ => ?_
    rw [iblk0_0_apply V c t (ix2 a j) (ix2 (i' 0) j) hE0 rfl, iblk0_1_apply V c t (ix2 j b)]
  · exact iblk0_2_apply V c t (ix2 a 0) (ix2 (i' 0) 0) hE0 rfl

theorem final0_3 (c : Dev nD) : (dat0 V c).arrAt 3 cfg0.N = G0 V c :=
  (dat0 V c).arrAt_eq_of_cover 3 (G0 V c) (fun t _ => flushed0_3_eq V c t) covered0_3

theorem value0 (c : Dev nD) (i : Fin 100000) (k : Fin 128) :
    (dat0 (F := Ideal) V c).arrAt 3 cfg0.N (ix2 i k)
      = Cert.Spec.mm (fun i j => V c main_arg0 (ix2 i j)) (fun j k => V c main_arg4 (ix2 j k)) i k * V c main_v15 (ix2 i 0) := by
  rw [final0_3]; rfl

end AtIdeal

end Cert.KernelIdeal.Hand

end
-- ==== Proof.KI.Val1.lean ====
import proofs.«431255_j67791763800785_3_alg».proof.Proof.KI.Reg1
import proofs.«431255_j67791763800785_3_alg».proof.Proof.Spec
import Idealize.ShloMosaic.Lib.Pipeline.Value
import Idealize.ShloMosaic.Lib.ValueIdx
import Idealize.ShloMosaic.Lib.ValueIdxCoords
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem pay1_apply (x0 : Vec Ideal S5000x128 .f32) (x1 : Vec Ideal S5000x1 .f32) (x2 : Vec Ideal S1x128 .f32) (j : S5000x128.Idx) :
    k1_pay1 x0 x1 x2 j = Cert.Spec.leaky (x0 j * x1 (ix2 (j 0) 0) + x2 (ix2 0 (j 1))) := by
  unfold k1_pay1
  simp only [shapeCast_self]
  have e1 : broadcastTo S5000x128 x1 broadcasts_S5000x1_S5000x128 j = x1 (ix2 (j 0) 0) :=
    broadcastTo_apply x1 _ j _ (fun a => by match a with | ⟨0, _⟩ => rfl | ⟨1, _⟩ => rfl)
  have e2 : broadcastTo S5000x128 x2 broadcasts_S1x128_S5000x128 j = x2 (ix2 0 (j 1)) :=
    broadcastTo_apply x2 _ j _ (fun a => by match a with | ⟨0, _⟩ => rfl | ⟨1, _⟩ => rfl)
  simp only [select, cmpf, addf, mulf, broadcast, e1, e2]
  change Scalar.select (Ideal.cmp .oge (x0 j * x1 (ix2 (j 0) 0) + x2 (ix2 0 (j 1))) (Ideal.ofBits .f32 0#32))
      (x0 j * x1 (ix2 (j 0) 0) + x2 (ix2 0 (j 1)))
      (Ideal.ofBits .f32 0x3C23D70A#32 * (x0 j * x1 (ix2 (j 0) 0) + x2 (ix2 0 (j 1)))) = _
  generalize x0 j * x1 (ix2 (j 0) 0) + x2 (ix2 0 (j 1)) = y
  unfold Cert.Spec.leaky Scalar.select Ideal.cmp
  rw [IdealRules.sign_bit.ideal_zero .f32]
  by_cases h : 0 ≤ y
  · rw [if_pos h]; simp only [h, decide_true, BitVec.ofBool_true, if_true]
  · rw [if_neg h]; simp only [h, decide_false, BitVec.ofBool_false]; rw [if_neg (by decide)]

variable (V : (c : Dev nD) → (b : Ref sig .tc) → Buf (Elt Ideal) ((c : Thread nD τ).loc b))

theorem zeros1 : (![0, 0] : Fin 2 → Nat) = fun _ => 0 := funext fun a => by fin_cases a <;> rfl

def P1 (a0 : S100000x128.Idx → EReal) (a1 : S100000x1.Idx → EReal) (a2 : S1x128.Idx → EReal)
    (p0 : S100000x128.Idx) (p1 : S100000x1.Idx) (p2 : S1x128.Idx) : EReal :=
  Cert.Spec.leaky (a0 p0 * a1 p1 + a2 p2)

def G1 (a0 : S100000x128.Idx → EReal) (a1 : S100000x1.Idx → EReal) (a2 : S1x128.Idx → EReal) : S100000x128.Idx → EReal :=
  fun i => P1 a0 a1 a2 i (ix2 (i 0) 0) (ix2 0 (i 1))

theorem G1_apply (a0 : S100000x128.Idx → EReal) (a1 : S100000x1.Idx → EReal) (a2 : S1x128.Idx → EReal) (i : Fin 100000) (k : Fin 128) :
    G1 a0 a1 a2 (ix2 i k) = Cert.Spec.leaky (a0 (ix2 i k) * a1 (ix2 i 0) + a2 (ix2 0 k)) := rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blk_idx1 (a0 : S100000x128.Idx → EReal) (a1 : S100000x1.Idx → EReal) (a2 : S1x128.Idx → EReal) (t : Fin cfg1.N) (j : S5000x128.Idx) :
    P1 a0 a1 a2 (((cfg1.win 0).blk t).view.emb j) (((cfg1.win 1).blk t).view.emb (ix2 (j 0) 0 : S5000x1.Idx))
        (((cfg1.win 2).blk t).view.emb (ix2 0 (j 1) : S1x128.Idx))
      = G1 a0 a1 a2 (((cfg1.win 3).blk t).view.emb j) := by
  obtain ⟨e0, e1, e2, e3, e4, e5, e6, e7⟩ := idx_facts1 t
  have hj0 : (j 0).val < 5000 := (j 0).isLt
  have hj1 : (j 1).val < 128 := (j 1).isLt
  have q0 : (((((cfg1.win 3).blk t).view.emb j : S100000x128.Idx)) 0).val = t.val * 5000 + (j 0).val := by
    show win1_3.index t (0 : Fin 2) * 5000 + 1 * (j 0).val = _; omega
  have q1 : (((((cfg1.win 3).blk t).view.emb j : S100000x128.Idx)) 1).val = (j 1).val := by
    show win1_3.index t (1 : Fin 2) * 128 + 1 * (j 1).val = _; omega
  have h0 : (((cfg1.win 0).blk t).view.emb j : S100000x128.Idx) = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  rw [h0]
  obtain ⟨p, hp⟩ : ∃ p : S100000x128.Idx, ((cfg1.win 3).blk t).view.emb j = p := ⟨_, rfl⟩
  rw [hp] at q0 q1 ⊢
  have h1 : @Eq S100000x1.Idx (((cfg1.win 1).blk t).view.emb (ix2 (j 0) 0 : S5000x1.Idx)) (ix2 (p 0) 0) := by
    funext a; apply Fin.ext
    match a with
    | ⟨0, _⟩ => show win1_1.index t (0 : Fin 2) * 5000 + 1 * (j 0).val = (p 0).val; omega
    | ⟨1, _⟩ => show win1_1.index t (1 : Fin 2) * 1 + 1 * 0 = 0; omega
  have h2 : @Eq S1x128.Idx (((cfg1.win 2).blk t).view.emb (ix2 0 (j 1) : S1x128.Idx)) (ix2 0 (p 1)) := by
    funext a; apply Fin.ext
    match a with
    | ⟨0, _⟩ => show win1_2.index t (0 : Fin 2) * 1 + 1 * 0 = 0; omega
    | ⟨1, _⟩ => show win1_2.index t (1 : Fin 2) * 128 + 1 * (j 1).val = (p 1).val; omega
  rw [h1, h2]
  rfl

theorem flushed1_3_eq (c : Dev nD) (t : Fin cfg1.N) :
    (dat1 V c).flushed 3 t = ((cfg1.win 3).blk t).view.read (Elt Ideal) (G1 (V c main_v27) (V c main_v15) (V c main_v28)) := by
  show (cfg1.win 3).cut (grid1.coords t) ((dat1 V c).after 3 t) = _
  rw [after1_3]
  unfold out1_3
  rw [View.canon_unit_zero zeros1]
  simp only [View.ld_unit_zero (S := S5000x128) zeros1, View.ld_unit_zero (S := S5000x1) zeros1, View.ld_unit_zero (S := S1x128) zeros1]
  funext j
  show k1_pay1 (iblk1 V c 0 t) (iblk1 V c 1 t) (iblk1 V c 2 t) j = G1 (V c main_v27) (V c main_v15) (V c main_v28) (((cfg1.win 3).blk t).view.emb j)
  rw [pay1_apply, ← blk_idx1]
  rfl

theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

theorem covered1_3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < cfg1.N := by show (i 0).val / 5000 < 20; omega
  refine ⟨⟨(i 0).val / 5000, ht⟩, flush1_3 _, ?_⟩
  obtain ⟨e0, e1, e2, e3, e4, e5, e6, e7⟩ := idx_facts1 ⟨(i 0).val / 5000, ht⟩
  have e6' : win1_3.index ⟨(i 0).val / 5000, ht⟩ (0 : Fin 2) = (i 0).val / 5000 := e6
  rw [mem_blk1_3]
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 128 ≤ (i 1).val ∧ (i 1).val < win1_3.index ⟨(i 0).val / 5000, ht⟩ (1 : Fin 2) * 128 + 128; omega

theorem final1_3 (c : Dev nD) : (dat1 V c).arrAt 3 cfg1.N = G1 (V c main_v27) (V c main_v15) (V c main_v28) :=
  (dat1 V c).arrAt_eq_of_cover 3 (G1 (V c main_v27) (V c main_v15) (V c main_v28)) (fun t _ => flushed1_3_eq V c t) covered1_3

theorem val1 (c : Dev nD) (i : Fin 100000) (k : Fin 128) :
    (dat1 (F := Ideal) V c).arrAt 3 cfg1.N (ix2 i k) = G1 (V c main_v27) (V c main_v15) (V c main_v28) (ix2 i k) := by
  rw [final1_3]

end Cert.KernelIdeal.Hand

end
-- ==== Proof.KI.Chain1.lean ====
import proofs.«431255_j67791763800785_3_alg».proof.Proof.KI.Run
import proofs.«431255_j67791763800785_3_alg».proof.Proof.KI.Host45
import proofs.«431255_j67791763800785_3_alg».proof.Proof.KI.Host1
import proofs.«431255_j67791763800785_3_alg».proof.Proof.KI.Chain2
import proofs.«431255_j67791763800785_3_alg».proof.Proof.KI.Val0
import proofs.«431255_j67791763800785_3_alg».proof.Proof.KI.Val1
import proofs.«431255_j67791763800785_3_alg».proof.Proof.Spec
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

theorem x4_v16_apply (c : Dev nD) (i : Fin 100000) (q : Fin 128) :
    x4 m c main_v16 (ix2 i q)
      = Cert.Spec.mm (fun i j => m ((c.tc : Thread nD τ).loc main_arg0) (ix2 i j)) (fun j k => m ((c.tc : Thread nD τ).loc main_arg4) (ix2 j k)) i q
        * e3 m c main_v14 (ix1 i) := by
  rw [x4_v16]
  unfold o4
  rw [value0 (tv (e3 m)) c i q]
  have e0 : tv (e3 m) c main_arg0 = m ((c.tc : Thread nD τ).loc main_arg0) := e3_args m c main_arg0 (by decide)
  have e4 : tv (e3 m) c main_arg4 = m ((c.tc : Thread nD τ).loc main_arg4) := e3_args m c main_arg4 (by decide)
  have e15 : tv (e3 m) c main_v15 (ix2 i 0) = e3 m c main_v14 (ix1 i) := e3_v15_row m c i
  rw [e0, e4, e15]

theorem chain_h1 (c : Dev nD) (v : Fin 100000) (q : Fin 128) :
    x6 m c main_v29 (ix2 v q) = Cert.Spec.layerK (by decide : 0 < 100000)
      (Cert.Spec.mm (fun i j => m ((c.tc : Thread nD τ).loc main_arg0) (ix2 i j)) (fun j k => m ((c.tc : Thread nD τ).loc main_arg4) (ix2 j k)))
      (fun i => e3 m c main_v14 (ix1 i)) (fun e => e5 m c main_v21 (ix1 e)) (fun e => e3 m c main_v6 (ix1 e))
      (fun k => m ((c.tc : Thread nD τ).loc main_arg5) (ix1 k)) v q := by
  rw [x6_v29]
  unfold o6
  have hval := val1 (tv (e5 m)) c v q
  rw [G1_apply] at hval
  rw [hval]
  have h27 : tv (e5 m) c main_v27 (ix2 v q) = _ := e5_v27 m c v q
  have h15 : tv (e5 m) c main_v15 (ix2 v 0) = e3 m c main_v14 (ix1 v) := by
    show e5 m c main_v15 (ix2 v 0) = _
    rw [e5_v15]
    exact e3_v15_row m c v
  have h28 : tv (e5 m) c main_v28 (ix2 0 q) = m ((c.tc : Thread nD τ).loc main_arg5) (ix1 q) := e5_v28 m c q
  rw [h27, h15, h28]
  unfold Cert.Spec.layerK
  have h16 : (fun (i : Fin 100000) (q : Fin 128) => x4 m c main_v16 (ix2 i q))
      = fun i q => Cert.Spec.mm (fun i j => m ((c.tc : Thread nD τ).loc main_arg0) (ix2 i j)) (fun j k => m ((c.tc : Thread nD τ).loc main_arg4) (ix2 j k)) i q
          * e3 m c main_v14 (ix1 i) := by
    funext i q
    exact x4_v16_apply m c i q
  rw [h16]

end Cert.KernelIdeal.Hand

end
-- ==== Proof.KI.Val5.lean ====
import proofs.«431255_j67791763800785_3_alg».proof.Proof.KI.Reg5
import Idealize.ShloMosaic.Lib.Pipeline.Value
import Idealize.ShloMosaic.Lib.ValueIdx
import Idealize.ShloMosaic.PureOps.Ideal.Laws
import proofs.«431255_j67791763800785_3_alg».proof.Proof.Spec
import proofs.«431255_j67791763800785_3_alg».proof.Proof.LibMatmul

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Generic

variable {F : FTy → Type} [FloatOps F]
variable (V : (c : Dev nD) → (b : Ref sig .tc) → Buf (Elt F) ((c : Thread nD τ).loc b))

theorem hz5 : (![0, 0] : Fin 2 → Nat) = fun _ => 0 := funext fun a => by fin_cases a <;> rfl

theorem iblk5_0_eq (c : Dev nD) (t : Fin cfg5.N) : iblk5 V c 0 t = V c main_v45 := by
  unfold iblk5
  have hz' : (fun a => win5_0.index t a * main_v45.ty.shape.size a) = fun _ => 0 := funext fun a => by fin_cases a <;> rfl
  exact Memref.read_access_unit_zero (Elt F) main_v45 hz' (fun a => by rw [congrFun hz' a]; simp) _

theorem iblk5_1_eq (c : Dev nD) (t : Fin cfg5.N) : iblk5 V c 1 t = V c main_arg3 := by
  unfold iblk5
  have hz' : (fun a => win5_1.index t a * main_arg3.ty.shape.size a) = fun _ => 0 := funext fun a => by fin_cases a <;> rfl
  exact Memref.read_access_unit_zero (Elt F) main_arg3 hz' (fun a => by rw [congrFun hz' a]; simp) _

theorem iblk5_2_eq (c : Dev nD) (t : Fin cfg5.N) : iblk5 V c 2 t = V c main_arg8 := by
  unfold iblk5
  have hz' : (fun a => win5_2.index t a * main_arg8.ty.shape.size a) = fun _ => 0 := funext fun a => by fin_cases a <;> rfl
  exact Memref.read_access_unit_zero (Elt F) main_arg8 hz' (fun a => by rw [congrFun hz' a]; simp) _

theorem iblk5_3_eq (c : Dev nD) (t : Fin cfg5.N) : iblk5 V c 3 t = V c main_v46 := by
  unfold iblk5
  have hz' : (fun a => win5_3.index t a * main_v46.ty.shape.size a) = fun _ => 0 := funext fun a => by fin_cases a <;> rfl
  exact Memref.read_access_unit_zero (Elt F) main_v46 hz' (fun a => by rw [congrFun hz' a]; simp) _

theorem iblk5_4_eq (c : Dev nD) (t : Fin cfg5.N) : iblk5 V c 4 t = V c main_arg10 := by
  unfold iblk5
  have hz' : (fun a => win5_4.index t a * main_arg10.ty.shape.size a) = fun _ => 0 := funext fun a => by fin_cases a <;> rfl
  exact Memref.read_access_unit_zero (Elt F) main_arg10 hz' (fun a => by rw [congrFun hz' a]; simp) _

theorem iblk5_5_eq (c : Dev nD) (t : Fin cfg5.N) : iblk5 V c 5 t = V c main_v47 := by
  unfold iblk5
  have hz' : (fun a => win5_5.index t a * main_v47.ty.shape.size a) = fun _ => 0 := funext fun a => by fin_cases a <;> rfl
  exact Memref.read_access_unit_zero (Elt F) main_v47 hz' (fun a => by rw [congrFun hz' a]; simp) _

theorem iblk5_6_eq (c : Dev nD) (t : Fin cfg5.N) : iblk5 V c 6 t = V c main_arg12 := by
  unfold iblk5
  have hz' : (fun a => win5_6.index t a * main_arg12.ty.shape.size a) = fun _ => 0 := funext fun a => by fin_cases a <;> rfl
  exact Memref.read_access_unit_zero (Elt F) main_arg12 hz' (fun a => by rw [congrFun hz' a]; simp) _

theorem iblk5_7_eq (c : Dev nD) (t : Fin cfg5.N) : iblk5 V c 7 t = V c main_v48 := by
  unfold iblk5
  have hz' : (fun a => win5_7.index t a * main_v48.ty.shape.size a) = fun _ => 0 := funext fun a => by fin_cases a <;> rfl
  exact Memref.read_access_unit_zero (Elt F) main_v48 hz' (fun a => by rw [congrFun hz' a]; simp) _

theorem iblk5_8_eq (c : Dev nD) (t : Fin cfg5.N) : iblk5 V c 8 t = V c main_arg14 := by
  unfold iblk5
  have hz' : (fun a => win5_8.index t a * main_arg14.ty.shape.size a) = fun _ => 0 := funext fun a => by fin_cases a <;> rfl
  exact Memref.read_access_unit_zero (Elt F) main_arg14 hz' (fun a => by rw [congrFun hz' a]; simp) _

theorem iblk5_9_eq (c : Dev nD) (t : Fin cfg5.N) : iblk5 V c 9 t = V c main_v49 := by
  unfold iblk5
  have hz' : (fun a => win5_9.index t a * main_v49.ty.shape.size a) = fun _ => 0 := funext fun a => by fin_cases a <;> rfl
  exact Memref.read_access_unit_zero (Elt F) main_v49 hz' (fun a => by rw [congrFun hz' a]; simp) _

theorem flushed5_10 (c : Dev nD) (t : Fin cfg5.N) (hf : (cfg5.win 10).flush t = true) :
    (dat5 V c).flushed 10 t = ((cfg5.win 10).blk t).view.read (Elt F) (out5_10 (V c main_v45) (V c main_arg3) (V c main_arg8) (V c main_v46) (V c main_arg10) (V c main_v47) (V c main_arg12) (V c main_v48) (V c main_arg14) (V c main_v49)) := by
  show (cfg5.win 10).cut (grid5.coords t) ((dat5 V c).after 10 t) = _
  rw [after5_10, iblk5_0_eq, iblk5_1_eq, iblk5_2_eq, iblk5_3_eq, iblk5_4_eq, iblk5_5_eq, iblk5_6_eq, iblk5_7_eq, iblk5_8_eq, iblk5_9_eq]
  have hz' : (fun a => win5_10.index t a * main_v50.ty.shape.size a) = fun _ => 0 := funext fun a => by fin_cases a <;> rfl
  exact (Memref.read_access_unit_zero (Elt F) main_v50 hz' (fun a => by rw [congrFun hz' a]; simp) _).symm

theorem final5 (c : Dev nD) : (dat5 V c).arrAt 10 cfg5.N = out5_10 (V c main_v45) (V c main_arg3) (V c main_arg8) (V c main_v46) (V c main_arg10) (V c main_v47) (V c main_arg12) (V c main_v48) (V c main_arg14) (V c main_v49) :=
  (dat5 V c).arrAt_eq_of_cover 10 _ (flushed5_10 V c) fun i =>
    ⟨t5_0, flush5_10 t5_0, by
      show i ∈ ((View.whole main_v50).slice (win5_10.rect t5_0)).set
      rw [View.set_slice_whole, Rect.mem_set_unit]
      intro a
      have h0 : (i 0 : Nat) < 256 := (i 0).isLt
      have h1 : (i 1 : Nat) < 1 := (i 1).isLt
      match a with
      | ⟨0, _⟩ => show win5_10.index t5_0 0 * win5_10.size 0 ≤ (i 0 : Nat) ∧ (i 0 : Nat) < win5_10.index t5_0 0 * win5_10.size 0 + win5_10.xsize (grid5.coords t5_0) 0
                  rw [show win5_10.index t5_0 0 * win5_10.size 0 = 0 from by decide +kernel, show win5_10.xsize (grid5.coords t5_0) 0 = 256 from by decide +kernel]; omega
      | ⟨1, _⟩ => show win5_10.index t5_0 1 * win5_10.size 1 ≤ (i 1 : Nat) ∧ (i 1 : Nat) < win5_10.index t5_0 1 * win5_10.size 1 + win5_10.xsize (grid5.coords t5_0) 1
                  rw [show win5_10.index t5_0 1 * win5_10.size 1 = 0 from by decide +kernel, show win5_10.xsize (grid5.coords t5_0) 1 = 1 from by decide +kernel]; omega⟩

end Generic

section AtIdeal

open scoped BigOperators

theorem select_oge_leaky (y : Ideal .f32) :
    Scalar.select (FloatOps.cmpf .oge y (FloatOps.ofBits .f32 0x00000000#32)) y (FloatOps.ofBits .f32 0x3C23D70A#32 * y) = Cert.Spec.leaky y := by
  show Scalar.select (Ideal.cmp .oge y (Ideal.ofBits .f32 0x00000000#32)) y (Ideal.ofBits .f32 0x3C23D70A#32 * y) = Cert.Spec.leaky y
  rw [Ideal.ofBits_zero_f32]
  unfold Scalar.select Ideal.cmp Cert.Spec.leaky
  by_cases h : (0 : EReal) ≤ y <;> simp [h]

theorem bias128_apply {α : Type} (b : S1x128.Idx → α) (g : Fin 256) (j : Fin 128) :
    broadcastTo S256x128 b broadcasts_S1x128_S256x128 (ix2 g j) = b (ix2 0 j) := broadcastTo_apply b _ _ (ix2 0 j) (fun a => by match a with | ⟨0, _⟩ => rfl | ⟨1, _⟩ => rfl)

theorem bias1_apply {α : Type} (b : S1x1.Idx → α) (g : Fin 256) (j : Fin 1) :
    broadcastTo S256x1 b broadcasts_S1x1_S256x1 (ix2 g j) = b (ix2 0 0) := broadcastTo_apply b _ _ (ix2 0 0) (fun a => by match a with | ⟨0, _⟩ => rfl | ⟨1, _⟩ => rfl)

theorem concat_apply {α : Type} (x₁ x₂ : S256x128.Idx → α) (g : Fin 256) (k : Fin 256) :
    concatenate S256x256 1 [⟨S256x128, x₁⟩, ⟨S256x128, x₂⟩] concatenates_S256x128_S256x128_S256x256_d1 (ix2 g k)
      = if h : k.val < 128 then x₁ (ix2 g ⟨k.val, h⟩) else x₂ (ix2 g ⟨k.val - 128, by omega⟩) := by
  split
  · next h =>
    exact concatenate_pair_apply_left 1 x₁ x₂ _ (ix2 g k) rfl (ix2 g ⟨k.val, h⟩)
      (fun b => by match b with | ⟨0, _⟩ => rfl | ⟨1, _⟩ => rfl)
  · next h =>
    exact concatenate_pair_apply_right 1 x₁ x₂ _ (ix2 g k) rfl rfl (ix2 g ⟨k.val - 128, by omega⟩)
      (fun b hb => by match b with | ⟨0, _⟩ => rfl | ⟨1, _⟩ => exact absurd rfl hb)
      (by show (k.val - 128) + 128 = k.val; omega)

theorem out5_10_apply (X0 : Vec Ideal S256x128 .f32) (X1 : Vec Ideal S256x32 .f32) (X2 : Vec Ideal S128x128 .f32) (X3 : Vec Ideal S1x128 .f32) (X4 : Vec Ideal S32x128 .f32) (X5 : Vec Ideal S1x128 .f32) (X6 : Vec Ideal S256x128 .f32) (X7 : Vec Ideal S1x128 .f32) (X8 : Vec Ideal S128x1 .f32) (X9 : Vec Ideal S1x1 .f32) (g : Fin 256) :
    out5_10 X0 X1 X2 X3 X4 X5 X6 X7 X8 X9 (ix2 g 0)
      = Cert.Spec.mlp (G := 256) (Q := 32) (H2 := 128) (fun g t => X0 (ix2 g t)) (fun g t => X1 (ix2 g t)) (fun i j => X2 (ix2 i j)) (fun k => X3 (ix2 0 k))
          (fun i j => X4 (ix2 i j)) (fun k => X5 (ix2 0 k)) (fun i j => X6 (ix2 i j)) (fun k => X7 (ix2 0 k))
          (fun i j => X8 (ix2 i j)) (X9 (ix2 0 0)) g := by
  unfold out5_10
  rw [View.canon_unit_zero hz5]
  simp only [View.ld_unit_zero (S := S256x128) hz5, View.ld_unit_zero (S := S256x32) hz5, View.ld_unit_zero (S := S128x128) hz5, View.ld_unit_zero (S := S1x128) hz5, View.ld_unit_zero (S := S32x128) hz5, View.ld_unit_zero (S := S128x1) hz5, View.ld_unit_zero (S := S1x1) hz5]
  unfold k5_pay1 k5_pay3 k5_pay4 k5_pay2
  simp only [show dot_S256x128_S128x128_S256x128_1_0_0_1_n_n = Cert.Lib.MatMul.mmD 256 128 128 dot_S256x128_S128x128_S256x128_1_0_0_1_n_n_wf from rfl,
    show dot_S256x32_S32x128_S256x128_1_0_0_1_n_n = Cert.Lib.MatMul.mmD 256 32 128 dot_S256x32_S32x128_S256x128_1_0_0_1_n_n_wf from rfl,
    show dot_S256x256_S256x128_S256x128_1_0_0_1_n_n = Cert.Lib.MatMul.mmD 256 256 128 dot_S256x256_S256x128_S256x128_1_0_0_1_n_n_wf from rfl,
    show dot_S256x128_S128x1_S256x1_1_0_0_1_n_n = Cert.Lib.MatMul.mmD 256 128 1 dot_S256x128_S128x1_S256x1_1_0_0_1_n_n_wf from rfl,
    Cert.Lib.MatMul.matmul_apply, constant_apply, Ideal.ofBits_zero_f32, zero_add, addf_apply, bias1_apply, truncf_apply, select_apply,
    cmpf_apply, mulf_apply, broadcast_apply, bias128_apply, concat_apply, shapeCast_self, select_oge_leaky]
  rfl

theorem val5 (V : (c : Dev nD) → (b : Ref sig .tc) → Buf (Elt Ideal) ((c : Thread nD τ).loc b)) (c : Dev nD) (g : Fin 256) :
    (dat5 (F := Ideal) V c).arrAt 10 cfg5.N (ix2 g 0)
      = Cert.Spec.mlp (G := 256) (Q := 32) (H2 := 128)
          (pooled := fun g t => V c main_v45 (ix2 g t)) (gf := fun g t => V c main_arg3 (ix2 g t))
          (Wg := fun i j => V c main_arg8 (ix2 i j)) (bg := fun k => V c main_v46 (ix2 0 k))
          (Wf := fun i j => V c main_arg10 (ix2 i j)) (bf := fun k => V c main_v47 (ix2 0 k))
          (Wm1 := fun i j => V c main_arg12 (ix2 i j)) (bm1 := fun k => V c main_v48 (ix2 0 k))
          (Wm2 := fun i j => V c main_arg14 (ix2 i j)) (bm2 := V c main_v49 (ix2 0 0)) g := by
  rw [final5]
  exact out5_10_apply _ _ _ _ _ _ _ _ _ _ g

end AtIdeal

end Cert.KernelIdeal.Hand

end
-- ==== Proof.KI.Val4.lean ====
import proofs.«431255_j67791763800785_3_alg».proof.Proof.KI.Reg4
import proofs.«431255_j67791763800785_3_alg».proof.Proof.Spec
import proofs.«431255_j67791763800785_3_alg».proof.Proof.Algebra
import proofs.«431255_j67791763800785_3_alg».proof.Proof.LibMatmul
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

theorem ofBits_one_f32 : Ideal.ofBits .f32 0x3F800000#32 = 1 := by
  have h : ((8388608 : ℝ) * ((2 : ℝ) ^ 23)⁻¹) = 1 := by norm_num
  simp [Ideal.ofBits, Ideal.ieee]
  first
    | exact_mod_cast h
    | (rw [← EReal.coe_mul]; exact_mod_cast h)
    | norm_num

theorem word_eq_iff (a : BitVec 32) (g : Fin 256) : a = BitVec.ofNat 32 g.val ↔ a.toInt = (g.val : Int) := by
  have hg := g.isLt
  have h1 : a = BitVec.ofNat 32 g.val ↔ a.toNat = g.val := by
    rw [← BitVec.toNat_inj, BitVec.toNat_ofNat, Nat.mod_eq_of_lt (by omega)]
  rw [h1, BitVec.toInt_eq_toNat_cond]
  have := a.isLt
  split <;> omega

theorem k4pay3_apply (v4 : Vec Ideal S10000x1 .i32) (i : Fin 10000) (g : Fin 256) :
    k4_pay3 v4 (ix2 i g) = IntOp.cmpi .eq (v4 (ix2 i 0)) (BitVec.ofNat 32 g.val) := by
  unfold k4_pay3
  simp only [shapeCast_self]
  show IntOp.cmpi .eq _ _ = _
  rw [broadcastTo_apply v4 broadcasts_S10000x1_S10000x256 (ix2 i g) (ix2 i 0) (fun r => by match r with | ⟨0, _⟩ => rfl | ⟨1, _⟩ => rfl),
    broadcastTo_apply _ broadcasts_S1x256_S10000x256 (ix2 i g) (ix2 0 g) (fun r => by match r with | ⟨0, _⟩ => rfl | ⟨1, _⟩ => rfl),
    iota_single_apply]

theorem toInt_widen_true : (BitVec.setWidth 32 (BitVec.ofBool true)).toInt = 1 := by decide
theorem toInt_widen_false : (BitVec.setWidth 32 (BitVec.ofBool false)).toInt = 0 := by decide

theorem onehot_apply (v4 : Vec Ideal S10000x1 .i32) (i : Fin 10000) (g : Fin 256) :
    (sitofp .f32 (extui 32 (k4_pay3 v4) natLt_1_32) : FVec Ideal S10000x256 .f32) (ix2 i g)
      = if (v4 (ix2 i 0)).toInt = (g.val : Int) then (1 : EReal) else 0 := by
  rw [sitofp_apply, extui_apply, k4pay3_apply]
  show (((BitVec.setWidth 32 (BitVec.ofBool (v4 (ix2 i 0) == BitVec.ofNat 32 g.val))).toInt : ℝ) : EReal) = _
  by_cases h : v4 (ix2 i 0) = BitVec.ofNat 32 g.val
  · rw [if_pos ((word_eq_iff _ g).mp h)]
    have hb : (v4 (ix2 i 0) == BitVec.ofNat 32 g.val) = true := by rw [h]; exact beq_self_eq_true _
    rw [hb, toInt_widen_true]; simp
  · rw [if_neg (fun h' => h ((word_eq_iff _ g).mpr h'))]
    have hb : (v4 (ix2 i 0) == BitVec.ofNat 32 g.val) = false := by simpa using h
    rw [hb, toInt_widen_false]; simp

theorem k4pay4_apply (v4 : Vec Ideal S10000x1 .i32) (v12 : Vec Ideal S10000x128 .f32) (v15 : Vec Ideal S256x128 .f32)
    (g : Fin 256) (q : Fin 128) :
    k4_pay4 v4 v12 v15 (ix2 g q)
      = v15 (ix2 g q) + (0 + ∑ i : Fin 10000, (if (v4 (ix2 i 0)).toInt = (g.val : Int) then (1 : EReal) else 0) * v12 (ix2 i q)) := by
  unfold k4_pay4
  simp only [shapeCast_self]
  rw [addf_apply,
    show dot_S10000x256_S10000x128_S256x128_0_0_1_1_n_n = Cert.Lib.MatMul.mmTD 10000 256 128 dot_S10000x256_S10000x128_S256x128_0_0_1_1_n_n_wf from rfl,
    Cert.Lib.MatMul.matmulT_apply, constant_apply, Ideal.ofBits_zero_f32]
  congr 2
  refine Finset.sum_congr rfl fun i _ => ?_
  rw [truncf_apply, truncf_apply, onehot_apply]

theorem lift_row (g : Fin 256) (i : Fin 10000) :
    reduces_S10000x256_S256.lift (ix1 g : S256.Idx) i = (ix2 i g : S10000x256.Idx) := by
  funext r; apply Fin.ext
  match r with
  | ⟨0, _⟩ => rfl
  | ⟨1, _⟩ => rfl

theorem k4pay5_apply (v4 : Vec Ideal S10000x1 .i32) (v25 : Vec Ideal S256x1 .f32) (g : Fin 256) :
    k4_pay5 v4 v25 (ix2 g 0)
      = v25 (ix2 g 0) + (0 + ∑ i : Fin 10000, (if (v4 (ix2 i 0)).toInt = (g.val : Int) then (1 : EReal) else 0)) := by
  unfold k4_pay5
  simp only [shapeCast_self]
  rw [addf_apply, zero_add]
  congr 1
  rw [shapeCast_apply _ shapeCasts_S256_S256x1 (ix2 g 0) (ix1 g) (by rw [Shape.rowMajor_val_one, Shape.rowMajor_val_two]; show g.val = g.val * 1 + 0; omega)]
  show Ideal.reduceAdd reduces_S10000x256_S256 (sitofp .f32 (extui 32 (k4_pay3 v4) natLt_1_32) : FVec Ideal S10000x256 .f32) (ix1 g) = _
  rw [Ideal.reduceAdd_single]
  show (∑ i : Fin 10000, _) = _
  refine Finset.sum_congr rfl fun i _ => ?_
  rw [lift_row]
  exact onehot_apply v4 i g

theorem k4pay6_apply (v33 : Vec Ideal S256x128 .f32) (v34 : Vec Ideal S256x1 .f32) (g : Fin 256) (q : Fin 128) :
    k4_pay6 v33 v34 (ix2 g q) = Ideal.div (v33 (ix2 g q)) (max (v34 (ix2 g 0)) 1) := by
  unfold k4_pay6
  rw [divf_apply,
    broadcastTo_apply _ broadcasts_S256x1_S256x128 (ix2 g q) (ix2 g 0) (fun r => by match r with | ⟨0, _⟩ => rfl | ⟨1, _⟩ => rfl),
    maximumf_apply, broadcast_apply]
  show Ideal.div _ (max _ (Ideal.ofBits .f32 0x3F800000#32)) = _
  rw [ofBits_one_f32]

section AtIdeal
variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

theorem iblk4_0_apply (c : Dev nD) (t : Fin cfg4.N) (x : S10000x128.Idx) (k : S100000x128.Idx)
    (hk0 : (k 0).val = 10000 * t.val + (x 0).val) (hk1 : (k 1).val = (x 1).val) :
    (iblk4 V c 0 t : Vec Ideal S10000x128 .f32) x = (V c main_v43 : S100000x128.Idx → Elt Ideal .f32) k := by
  obtain ⟨e0, e1, -⟩ := idx_facts4 t
  unfold iblk4
  rw [View.read_apply]
  show V c main_v43 _ = V c main_v43 _
  congr 1
  funext a; apply Fin.ext
  match a with
  | ⟨0, _⟩ => show win4_0.index t (0 : Fin 2) * 10000 + 1 * (x 0).val = (k 0).val; rw [e0, hk0]; omega
  | ⟨1, _⟩ => show win4_0.index t (1 : Fin 2) * 128 + 1 * (x 1).val = (k 1).val; rw [e1, hk1]; omega

theorem iblk4_1_apply (c : Dev nD) (t : Fin cfg4.N) (x : S10000x1.Idx) (k : S100000x1.Idx)
    (hk0 : (k 0).val = 10000 * t.val + (x 0).val) (hk1 : (k 1).val = (x 1).val) :
    (iblk4 V c 1 t : Vec Ideal S10000x1 .i32) x = (V c main_v44 : S100000x1.Idx → Elt Ideal .i32) k := by
  obtain ⟨-, -, e0, e1, -⟩ := idx_facts4 t
  unfold iblk4
  rw [View.read_apply]
  show V c main_v44 _ = V c main_v44 _
  congr 1
  funext a; apply Fin.ext
  match a with
  | ⟨0, _⟩ => show win4_1.index t (0 : Fin 2) * 10000 + 1 * (x 0).val = (k 0).val; rw [e0, hk0]; omega
  | ⟨1, _⟩ => show win4_1.index t (1 : Fin 2) * 1 + 1 * (x 1).val = (k 1).val; rw [e1, hk1]; omega

abbrev hRows (c : Dev nD) : Fin (10 * 10000) → Fin 128 → EReal := fun i q => (V c main_v43 : S100000x128.Idx → Elt Ideal .f32) (ix2 i q)
abbrev idRows (c : Dev nD) : Fin (10 * 10000) → BitVec 32 := fun i => (V c main_v44 : S100000x1.Idx → Elt Ideal .i32) (ix2 i 0)

theorem sAt_zero (c : Dev nD) (g : Fin 256) (q : Fin 128) : sAt V c 0 (ix2 g q) = 0 := by
  show k4_pay1 (F := Ideal) (ix2 g q) = 0
  unfold k4_pay1
  simp only [shapeCast_self]
  rw [broadcast_apply]
  exact Ideal.ofBits_zero_f32

theorem cAt_zero (c : Dev nD) (g : Fin 256) : cAt V c 0 (ix2 g 0) = 0 := by
  show k4_pay2 (F := Ideal) (ix2 g 0) = 0
  unfold k4_pay2
  simp only [shapeCast_self]
  rw [broadcast_apply]
  exact Ideal.ofBits_zero_f32

theorem sAt_step (c : Dev nD) (g : Fin 256) (q : Fin 128) (k : ℕ) (hk : k < 10) :
    sAt V c (k + 1) (ix2 g q) = sAt V c k (ix2 g q)
      + (0 + ∑ i : Fin 10000, Cert.Spec.oh (n := 10) (s := 10000) (idRows V c) g (Cert.Spec.blk (n := 10) (s := 10000) ⟨k, hk⟩ i) * hRows V c (Cert.Spec.blk (n := 10) (s := 10000) ⟨k, hk⟩ i) q) := by
  have hk' : k < cfg4.N := lt_of_lt_of_eq hk N_4.symm
  rw [show sAt V c (k + 1) = _ from sAt_succ V c ⟨k, hk'⟩, k4pay4_apply]
  refine congrArg (fun z : EReal => sAt V c k (ix2 g q) + (0 + z)) (Finset.sum_congr rfl fun i _ => ?_)
  unfold Cert.Spec.oh
  rw [iblk4_1_apply V c ⟨k, hk'⟩ (ix2 i 0) (ix2 (Cert.Spec.blk (n := 10) (s := 10000) ⟨k, hk⟩ i) 0) (by show k * 10000 + i.val = 10000 * k + i.val; omega) rfl,
    iblk4_0_apply V c ⟨k, hk'⟩ (ix2 i q) (ix2 (Cert.Spec.blk (n := 10) (s := 10000) ⟨k, hk⟩ i) q) (by show k * 10000 + i.val = 10000 * k + i.val; omega) rfl]

theorem cAt_step (c : Dev nD) (g : Fin 256) (k : ℕ) (hk : k < 10) :
    cAt V c (k + 1) (ix2 g 0) = cAt V c k (ix2 g 0)
      + (0 + ∑ i : Fin 10000, Cert.Spec.oh (n := 10) (s := 10000) (idRows V c) g (Cert.Spec.blk (n := 10) (s := 10000) ⟨k, hk⟩ i)) := by
  have hk' : k < cfg4.N := lt_of_lt_of_eq hk N_4.symm
  rw [show cAt V c (k + 1) = _ from cAt_succ V c ⟨k, hk'⟩, k4pay5_apply]
  refine congrArg (fun z : EReal => cAt V c k (ix2 g 0) + (0 + z)) (Finset.sum_congr rfl fun i _ => ?_)
  unfold Cert.Spec.oh
  rw [iblk4_1_apply V c ⟨k, hk'⟩ (ix2 i 0) (ix2 (Cert.Spec.blk (n := 10) (s := 10000) ⟨k, hk⟩ i) 0) (by show k * 10000 + i.val = 10000 * k + i.val; omega) rfl]

theorem sAt_total (c : Dev nD) (g : Fin 256) (q : Fin 128) :
    sAt V c 10 (ix2 g q) = Cert.Spec.poolSum (hRows V c) (idRows V c) g q :=
  Cert.Spec.pool_blocks_of_rec (n := 10) (s := 10000) (hRows V c) (idRows V c) g q (fun k => sAt V c k (ix2 g q))
    (sAt_zero V c g q) (fun k hk => sAt_step V c g q k hk)

theorem cAt_total (c : Dev nD) (g : Fin 256) :
    cAt V c 10 (ix2 g 0) = Cert.Spec.poolCnt (idRows V c) g :=
  Cert.Spec.cnt_blocks_of_rec (n := 10) (s := 10000) (idRows V c) g (fun k => cAt V c k (ix2 g 0))
    (cAt_zero V c g) (fun k hk => cAt_step V c g k hk)

def G4 (c : Dev nD) : S256x128.Idx → Elt Ideal .f32 := k4_pay6 (sAt V c 10) (cAt V c 10)

theorem flushed4_2_eq (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  obtain ⟨-, -, -, -, e0, e1⟩ := idx_facts4 t
  funext y
  rw [View.read_apply]
  obtain ⟨a, b, rfl⟩ : ∃ (a : Fin 256) (b : Fin 128), y = (ix2 a b : S256x128.Idx) := ⟨y 0, y 1, eq_ix2 (n0 := 256) (n1 := 128) y⟩
  show k4_pay6 (sAt V c 10) (cAt V c 10) (ix2 a b) = G4 V c (((cfg4.win 2).blk t).view.emb (ix2 a b : S256x128.Idx))
  have hE : ((cfg4.win 2).blk t).view.emb (ix2 a b : S256x128.Idx) = (ix2 a b : S256x128.Idx) := by
    funext r; apply Fin.ext
    match r with
    | ⟨0, _⟩ => show win4_2.index t (0 : Fin 2) * 256 + 1 * a.val = a.val; rw [e0]; omega
    | ⟨1, _⟩ => show win4_2.index t (1 : Fin 2) * 128 + 1 * b.val = b.val; rw [e1]; omega
  rw [hE]; rfl

theorem covered4_2 (i : S256x128.Idx) : ∃ t : Fin cfg4.N, (cfg4.win 2).flush t = true ∧ i ∈ ((cfg4.win 2).blk t).view.set := by
  have hi0 : (i 0).val < 256 := (i 0).isLt
  have hi1 : (i 1).val < 128 := (i 1).isLt
  have ht : 9 < cfg4.N := by rw [show cfg4.N = 10 from N_4]; omega
  obtain ⟨-, -, -, -, e0, e1⟩ := idx_facts4 ⟨9, ht⟩
  refine ⟨⟨9, ht⟩, (flush4_2 _).mpr rfl, ?_⟩
  show i ∈ ((View.whole main_v45).slice (win4_2.rect ⟨9, ht⟩)).set
  rw [View.set_slice_whole, Rect.mem_set_unit]
  intro a
  match a with
  | ⟨0, _⟩ =>
    show win4_2.index ⟨9, ht⟩ (0 : Fin 2) * 256 ≤ (i 0).val ∧ (i 0).val < win4_2.index ⟨9, ht⟩ (0 : Fin 2) * 256 + 256
    rw [e0]; omega
  | ⟨1, _⟩ =>
    show win4_2.index ⟨9, ht⟩ (1 : Fin 2) * 128 ≤ (i 1).val ∧ (i 1).val < win4_2.index ⟨9, ht⟩ (1 : Fin 2) * 128 + 128
    rw [e1]; omega

theorem final4_2 (c : Dev nD) : (dat4 V c).arrAt 2 cfg4.N = G4 V c :=
  (dat4 V c).arrAt_eq_of_cover 2 (G4 V c) (fun t _ => flushed4_2_eq V c t) covered4_2

theorem value4 (c : Dev nD) (g : Fin 256) (q : Fin 128) :
    (dat4 (F := Ideal) V c).arrAt 2 cfg4.N (ix2 g q)
      = Cert.Spec.pooledMean (fun i q => V c main_v43 (ix2 i q)) (fun i => V c main_v44 (ix2 i 0)) g q := by
  rw [final4_2]
  show k4_pay6 (sAt V c 10) (cAt V c 10) (ix2 g q) = _
  rw [k4pay6_apply, sAt_total, cAt_total]
  rfl

end AtIdeal

end Cert.KernelIdeal.Hand

end
-- ==== Proof.KI.Chain45.lean ====
import proofs.«431255_j67791763800785_3_alg».proof.Proof.KI.Run
import proofs.«431255_j67791763800785_3_alg».proof.Proof.KI.Host45
import proofs.«431255_j67791763800785_3_alg».proof.Proof.KI.Val5
import proofs.«431255_j67791763800785_3_alg».proof.Proof.KI.Val4
import proofs.«431255_j67791763800785_3_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

theorem x11_v45 (c : Dev nD) : x11 m c main_v45 = o11 m c := by
  show Function.update (e10 m c) main_v45 _ main_v45 = _
  rw [Function.update_self]

theorem mlp_congr_bias {G Q H2 : Nat} (pooled : Fin G → Fin H2 → EReal) (gf : Fin G → Fin Q → EReal)
    (Wg : Fin H2 → Fin H2 → EReal) {bg bg' : Fin H2 → EReal} (Wf : Fin Q → Fin H2 → EReal) {bf bf' : Fin H2 → EReal}
    (Wm1 : Fin (H2 + H2) → Fin H2 → EReal) {bm1 bm1' : Fin H2 → EReal} (Wm2 : Fin H2 → Fin 1 → EReal) {bm2 bm2' : EReal}
    (h1 : bg = bg') (h2 : bf = bf') (h3 : bm1 = bm1') (h4 : bm2 = bm2') (g : Fin G) :
    Cert.Spec.mlp pooled gf Wg bg Wf bf Wm1 bm1 Wm2 bm2 g = Cert.Spec.mlp pooled gf Wg bg' Wf bf' Wm1 bm1' Wm2 bm2' g := by
  subst h1 h2 h3 h4; rfl

theorem chain_out (c : Dev nD) (g : Fin 256) :
    x13 m c main_v50 (ix2 g 0) = Cert.Spec.mlp (G := 256) (H2 := 128) (Q := 32)
      (fun i j => x11 m c main_v45 (ix2 i j)) (fun i j => m ((c.tc : Thread nD τ).loc main_arg3) (ix2 i j))
      (fun i j => m ((c.tc : Thread nD τ).loc main_arg8) (ix2 i j)) (fun k => m ((c.tc : Thread nD τ).loc main_arg9) (ix1 k))
      (fun i j => m ((c.tc : Thread nD τ).loc main_arg10) (ix2 i j)) (fun k => m ((c.tc : Thread nD τ).loc main_arg11) (ix1 k))
      (fun i j => m ((c.tc : Thread nD τ).loc main_arg12) (ix2 i j)) (fun k => m ((c.tc : Thread nD τ).loc main_arg13) (ix1 k))
      (fun i j => m ((c.tc : Thread nD τ).loc main_arg14) (ix2 i j)) (m ((c.tc : Thread nD τ).loc main_arg15) (ix1 0)) g := by
  have h45 : e12 m c main_v45 = x11 m c main_v45 := e12_of m c main_v45 (by decide)
  have h3 := e12_args m c main_arg3 (by decide)
  have h8 := e12_args m c main_arg8 (by decide)
  have h10 := e12_args m c main_arg10 (by decide)
  have h12 := e12_args m c main_arg12 (by decide)
  have h14 := e12_args m c main_arg14 (by decide)
  rw [x13_v50]
  unfold o13
  rw [val5]
  simp only [tv, h45, h3, h8, h10, h12, h14]
  exact mlp_congr_bias _ _ _ _ _ _ (funext (e12_v46 m c)) (funext (e12_v47 m c)) (funext (e12_v48 m c)) (e12_v49 m c) g

theorem chain_pool (c : Dev nD) (g : Fin 256) (q : Fin 128) :
    x11 m c main_v45 (ix2 g q) = Cert.Spec.pooledMean (fun i q => x9 m c main_v43 (ix2 i q))
      (fun i => m ((c.tc : Thread nD τ).loc main_arg2) (ix1 i)) g q := by
  have h43 : e10 m c main_v43 = x9 m c main_v43 := e10_of m c main_v43 (by decide)
  rw [x11_v45]
  unfold o11
  rw [value4]
  simp only [tv, h43]
  exact congrArg (fun ids => Cert.Spec.pooledMean (fun i q => x9 m c main_v43 (ix2 i q)) ids g q) (funext (e10_v44 m c))

end Cert.KernelIdeal.Hand

end
-- ==== Proof.Bridge.lean ====
import proofs.«431255_j67791763800785_3_alg».proof.Proof.KI.Run
import proofs.«431255_j67791763800785_3_alg».proof.Proof.KI.Host45
import proofs.«431255_j67791763800785_3_alg».proof.Proof.RefValue
import proofs.«431255_j67791763800785_3_alg».proof.Proof.RefValueK
import proofs.«431255_j67791763800785_3_alg».proof.Proof.Cross
import proofs.«431255_j67791763800785_3_alg».proof.Proof.KI.Chain1
import proofs.«431255_j67791763800785_3_alg».proof.Proof.KI.Chain2
import proofs.«431255_j67791763800785_3_alg».proof.Proof.KI.Chain45

set_option maxRecDepth 16384

noncomputable section

namespace Cert.Bridge

open Idealize.ShloMosaic Idealize.ShloMosaic.TcCoe Idealize.SL.Sem Idealize.ShloMosaic.ValueIdx
open Cert.KernelIdeal.Hand Cert.ReferenceIdeal.RefValue

-- A memory of the reference holds the sixteen argument arrays of another.
abbrev RefKept {F : FTy → Type} (m mem : (ℓ : Loc Cert.ReferenceIdeal.nD Cert.ReferenceIdeal.τ Cert.ReferenceIdeal.sig) → Buf (Elt F) ℓ) (c : Dev Cert.ReferenceIdeal.nD) : Prop :=
  mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
  ∧ mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
  ∧ mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
  ∧ mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
  ∧ mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
  ∧ mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
  ∧ mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
  ∧ mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
  ∧ mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
  ∧ mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
  ∧ mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
  ∧ mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
  ∧ mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
  ∧ mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
  ∧ mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
  ∧ mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)

theorem ref_args_post {F : FTy → Type} [FloatOps F] (m : (ℓ : Loc Cert.ReferenceIdeal.nD Cert.ReferenceIdeal.τ Cert.ReferenceIdeal.sig) → Buf (Elt F) ℓ) (c : Dev Cert.ReferenceIdeal.nD)
    (mem : (ℓ : Loc Cert.ReferenceIdeal.nD Cert.ReferenceIdeal.τ Cert.ReferenceIdeal.sig) → Buf (Elt F) ℓ)
    (h : ∀ b : Ref Cert.ReferenceIdeal.sig .tc, mem ((c.tc : Thread Cert.ReferenceIdeal.nD Cert.ReferenceIdeal.τ).loc b) = StableHlo.after Cert.ReferenceIdeal.RunP.ops (StableHlo.launchContents m c) (Proc.devRef .tc b)) :
    RefKept m mem c :=
  ⟨(h Cert.ReferenceIdeal.main_arg0).trans (RV_arg0 m c),
   (h Cert.ReferenceIdeal.main_arg1).trans (RV_arg1 m c),
   (h Cert.ReferenceIdeal.main_arg2).trans (RV_arg2 m c),
   (h Cert.ReferenceIdeal.main_arg3).trans (RV_arg3 m c),
   (h Cert.ReferenceIdeal.main_arg4).trans (RV_arg4 m c),
   (h Cert.ReferenceIdeal.main_arg5).trans (RV_arg5 m c),
   (h Cert.ReferenceIdeal.main_arg6).trans (RV_arg6 m c),
   (h Cert.ReferenceIdeal.main_arg7).trans (RV_arg7 m c),
   (h Cert.ReferenceIdeal.main_arg8).trans (RV_arg8 m c),
   (h Cert.ReferenceIdeal.main_arg9).trans (RV_arg9 m c),
   (h Cert.ReferenceIdeal.main_arg10).trans (RV_arg10 m c),
   (h Cert.ReferenceIdeal.main_arg11).trans (RV_arg11 m c),
   (h Cert.ReferenceIdeal.main_arg12).trans (RV_arg12 m c),
   (h Cert.ReferenceIdeal.main_arg13).trans (RV_arg13 m c),
   (h Cert.ReferenceIdeal.main_arg14).trans (RV_arg14 m c),
   (h Cert.ReferenceIdeal.main_arg15).trans (RV_arg15 m c)⟩

-- Every argument array is an unscoped buffer that no item of the program writes.
theorem kernel_post {F : FTy → Type} [FloatOps F] (m : (ℓ : Loc Cert.KernelIdeal.nD Cert.KernelIdeal.τ Cert.KernelIdeal.sig) → Buf (Elt F) ℓ) (c : Dev Cert.KernelIdeal.nD)
    (mem : (ℓ : Loc Cert.KernelIdeal.nD Cert.KernelIdeal.τ Cert.KernelIdeal.sig) → Buf (Elt F) ℓ)
    (h : ∀ b ∈ Pipeline.ucRefs Cert.KernelIdeal.τ Cert.KernelIdeal.sig, mem (((c : Thread Cert.KernelIdeal.nD Cert.KernelIdeal.τ)).1, b) = x13 m c b) :
    mem ((c.tc : Thread Cert.KernelIdeal.nD Cert.KernelIdeal.τ).loc Cert.KernelIdeal.main_v50) = x13 m c Cert.KernelIdeal.main_v50
    ∧ mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ mem ((c.tc : Thread Cert.KernelIdeal.nD Cert.KernelIdeal.τ).loc Cert.KernelIdeal.main_arg11) = m ((c.tc : Thread Cert.KernelIdeal.nD Cert.KernelIdeal.τ).loc Cert.KernelIdeal.main_arg11)
    ∧ mem ((c.tc : Thread Cert.KernelIdeal.nD Cert.KernelIdeal.τ).loc Cert.KernelIdeal.main_arg12) = m ((c.tc : Thread Cert.KernelIdeal.nD Cert.KernelIdeal.τ).loc Cert.KernelIdeal.main_arg12)
    ∧ mem ((c.tc : Thread Cert.KernelIdeal.nD Cert.KernelIdeal.τ).loc Cert.KernelIdeal.main_arg13) = m ((c.tc : Thread Cert.KernelIdeal.nD Cert.KernelIdeal.τ).loc Cert.KernelIdeal.main_arg13)
    ∧ mem ((c.tc : Thread Cert.KernelIdeal.nD Cert.KernelIdeal.τ).loc Cert.KernelIdeal.main_arg14) = m ((c.tc : Thread Cert.KernelIdeal.nD Cert.KernelIdeal.τ).loc Cert.KernelIdeal.main_arg14)
    ∧ mem ((c.tc : Thread Cert.KernelIdeal.nD Cert.KernelIdeal.τ).loc Cert.KernelIdeal.main_arg15) = m ((c.tc : Thread Cert.KernelIdeal.nD Cert.KernelIdeal.τ).loc Cert.KernelIdeal.main_arg15) := by
  have key : ∀ r ∈ margs, mem ((c.tc : Thread Cert.KernelIdeal.nD Cert.KernelIdeal.τ).loc r) = m ((c.tc : Thread Cert.KernelIdeal.nD Cert.KernelIdeal.τ).loc r) := fun r hr =>
    (h (Proc.devRef .tc r) (Finset.mem_filter.mpr ⟨StableHlo.devRef_mem_tcRefs r,
      (by decide : ∀ r ∈ margs, ¬ (Proc.devRef (τ := Cert.KernelIdeal.τ) .tc r : DevRef Cert.KernelIdeal.τ Cert.KernelIdeal.sig).isScoped) r hr⟩)).trans (x13_args m c r hr)
  exact ⟨h (Proc.devRef .tc Cert.KernelIdeal.main_v50) (Finset.mem_filter.mpr ⟨StableHlo.devRef_mem_tcRefs Cert.KernelIdeal.main_v50, by decide⟩),
    key _ (by decide), key _ (by decide), key _ (by decide), key _ (by decide), key _ (by decide), key _ (by decide), key _ (by decide), key _ (by decide), key _ (by decide), key _ (by decide), key _ (by decide), key _ (by decide), key _ (by decide), key _ (by decide), key _ (by decide), key _ (by decide)⟩

-- The two memories hold the same sixteen argument arrays.
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hagree : Agree m m') (c : Dev Cert.KernelIdeal.nD)

include hagree

theorem bridge_h1 (v : Fin 100000) (q : Fin 128) :
    x6 m c Cert.KernelIdeal.main_v29 (ix2 v q) = RV m' c Cert.ReferenceIdeal.main_v51 (ix2 v q) := by
  have h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) :=
    fun c => (hagree c).2.1
  rw [chain_h1 m c v q, ref_h1K m' c v q, cross_dinv m m' h1 c, cross_src m m' h1 c, cross_dst m m' h1 c,
    ← (hagree c).1, ← (hagree c).2.2.2.2.1, ← (hagree c).2.2.2.2.2.1]

theorem bridge_h2 (v : Fin 100000) (q : Fin 128) :
    x9 m c Cert.KernelIdeal.main_v43 (ix2 v q) = RV m' c Cert.ReferenceIdeal.main_v99 (ix2 v q) := by
  have h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) :=
    fun c => (hagree c).2.1
  have e : (fun i j => x6 m c Cert.KernelIdeal.main_v29 (ix2 i j)) = (fun i j => RV m' c Cert.ReferenceIdeal.main_v51 (ix2 i j)) :=
    funext fun i => funext fun j => bridge_h1 m m' hagree c i j
  rw [chain_h2 m c v q, ref_h2K m' c v q, e, cross_src2 m m' h1 c, cross_dinv m m' h1 c, cross_dst m m' h1 c,
    ← (hagree c).2.2.2.2.2.2.1, ← (hagree c).2.2.2.2.2.2.2.1]

theorem bridge_pool
    (hH : ∀ (v : Fin 100000) (q : Fin 128), x9 m c Cert.KernelIdeal.main_v43 (ix2 v q) = RV m' c Cert.ReferenceIdeal.main_v99 (ix2 v q))
    (g : Fin 256) (q : Fin 128) : x11 m c Cert.KernelIdeal.main_v45 (ix2 g q) = RV m' c Cert.ReferenceIdeal.main_v111 (ix2 g q) := by
  rw [chain_pool m c g q, ref_pool m' c g q]
  have e : (fun i q => x9 m c Cert.KernelIdeal.main_v43 (ix2 i q)) = (fun i q => RV m' c Cert.ReferenceIdeal.main_v99 (ix2 i q)) :=
    funext fun i => funext fun q => hH i q
  rw [e, ← (hagree c).2.2.1]

theorem bridge_out
    (hP : ∀ (g : Fin 256) (q : Fin 128), x11 m c Cert.KernelIdeal.main_v45 (ix2 g q) = RV m' c Cert.ReferenceIdeal.main_v111 (ix2 g q)) :
    x13 m c Cert.KernelIdeal.main_v50 = RV m' c Cert.ReferenceIdeal.main_v138 := by
  funext j
  obtain ⟨g, z, rfl⟩ : ∃ (g : Fin 256) (z : Fin 1), j = ix2 g z := ⟨j 0, j 1, eq_ix2 j⟩
  obtain rfl : z = 0 := Subsingleton.elim _ _
  rw [chain_out m c g, ref_out m' c g]
  have e : (fun i j => x11 m c Cert.KernelIdeal.main_v45 (ix2 i j)) = (fun i j => RV m' c Cert.ReferenceIdeal.main_v111 (ix2 i j)) :=
    funext fun i => funext fun j => hP i j
  rw [e, ← (hagree c).2.2.2.1, ← (hagree c).2.2.2.2.2.2.2.2.1, ← (hagree c).2.2.2.2.2.2.2.2.2.1, ← (hagree c).2.2.2.2.2.2.2.2.2.2.1, ← (hagree c).2.2.2.2.2.2.2.2.2.2.2.1, ← (hagree c).2.2.2.2.2.2.2.2.2.2.2.2.1, ← (hagree c).2.2.2.2.2.2.2.2.2.2.2.2.2.1, ← (hagree c).2.2.2.2.2.2.2.2.2.2.2.2.2.2.1, ← (hagree c).2.2.2.2.2.2.2.2.2.2.2.2.2.2.2]

-- Layer by layer, then the pool, then the head: the kernel program's result is the reference's.
theorem bridge : x13 m c Cert.KernelIdeal.main_v50 = RV m' c Cert.ReferenceIdeal.main_v138 :=
  bridge_out m m' hagree c (bridge_pool m m' hagree c (bridge_h2 m m' hagree c))

theorem ref_post (mem : (ℓ : Loc Cert.ReferenceIdeal.nD Cert.ReferenceIdeal.τ Cert.ReferenceIdeal.sig) → Buf (Elt Ideal) ℓ)
    (h : ∀ b : Ref Cert.ReferenceIdeal.sig .tc, mem ((c.tc : Thread Cert.ReferenceIdeal.nD Cert.ReferenceIdeal.τ).loc b) = StableHlo.after Cert.ReferenceIdeal.RunP.ops (StableHlo.launchContents m' c) (Proc.devRef .tc b)) :
    mem ((c.tc : Thread Cert.ReferenceIdeal.nD Cert.ReferenceIdeal.τ).loc Cert.ReferenceIdeal.main_v138) = x13 m c Cert.KernelIdeal.main_v50 ∧ RefKept m' mem c :=
  ⟨(h Cert.ReferenceIdeal.main_v138).trans (bridge m m' hagree c).symm, ref_args_post m' c mem h⟩

end Cert.Bridge

end
-- ==== Proof.lean ====
import proofs.«431255_j67791763800785_3_alg».proof.Defs
import proofs.«431255_j67791763800785_3_alg».proof.Proof.Gen.Kernel
import proofs.«431255_j67791763800785_3_alg».proof.Proof.Gen.KernelIdeal
import proofs.«431255_j67791763800785_3_alg».proof.Proof.Gen.ReferenceIdeal
import proofs.«431255_j67791763800785_3_alg».proof.Proof.Gen.Pre_finite_inputs
import proofs.«431255_j67791763800785_3_alg».proof.Proof.K.Run
import proofs.«431255_j67791763800785_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c => Cert.Bridge.ref_args_post m c r.2.mem (h c))
    (Cert.ReferenceIdeal.RunP.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.x13 m c Cert.KernelIdeal.main_v50, ?_, ?_⟩
  · exact (θ_run Cert.KernelIdeal.defs _ _).mono (fun r h c => Cert.Bridge.kernel_post m c r.2.mem (h c))
      (Cert.KernelIdeal.Hand.run_vals m ρ)
  · exact (θ_run Cert.ReferenceIdeal.defs _ _).mono (fun r h c => Cert.Bridge.ref_post m m' hagree c r.2.mem (h c))
      (Cert.ReferenceIdeal.RunP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
